-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x640000 32) (main_arg2 : IVec S100000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S100000x1 : Shape := ⟨2, ![100000, 1]⟩
abbrev S10000x128 : Shape := ⟨2, ![10000, 128]⟩
abbrev S10000x1 : Shape := ⟨2, ![10000, 1]⟩
abbrev S740000x128 : Shape := ⟨2, ![740000, 128]⟩
abbrev S1x128 : Shape := ⟨2, ![1, 128]⟩
abbrev S100000x64 : Shape := ⟨2, ![100000, 64]⟩
abbrev S10000x64 : Shape := ⟨2, ![10000, 64]⟩
abbrev S740000x64 : Shape := ⟨2, ![740000, 64]⟩
abbrev S1x64 : Shape := ⟨2, ![1, 64]⟩
abbrev S256x64 : Shape := ⟨2, ![256, 64]⟩
abbrev S256x1 : Shape := ⟨2, ![256, 1]⟩
abbrev S10000x256 : Shape := ⟨2, ![10000, 256]⟩
abbrev S256x10000 : Shape := ⟨2, ![256, 10000]⟩
abbrev S256 : Shape := ⟨1, ![256]⟩
abbrev S1x256 : Shape := ⟨2, ![1, 256]⟩

abbrev nBuf : Space → Nat
  | .hbm => 63
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x640000, .i32⟩
  | .hbm, ⟨9, _⟩ => ⟨S640000, .i32⟩
  | .hbm, ⟨10, _⟩ => ⟨S740000, .i32⟩
  | .hbm, ⟨11, _⟩ => ⟨S1x640000, .i32⟩
  | .hbm, ⟨12, _⟩ => ⟨S640000, .i32⟩
  | .hbm, ⟨13, _⟩ => ⟨S740000, .i32⟩
  | .hbm, ⟨14, _⟩ => ⟨S_, .f32⟩
  | .hbm, ⟨15, _⟩ => ⟨S740000, .f32⟩
  | .hbm, ⟨16, _⟩ => ⟨S_, .f32⟩
  | .hbm, ⟨17, _⟩ => ⟨S100000, .f32⟩
  | .hbm, ⟨18, _⟩ => ⟨S740000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S_, .i32⟩
  | .hbm, ⟨31, _⟩ => ⟨S740000, .i32⟩
  | .hbm, ⟨32, _⟩ => ⟨S740000, .i1⟩
  | .hbm, ⟨33, _⟩ => ⟨S_, .i32⟩
  | .hbm, ⟨34, _⟩ => ⟨S740000, .i32⟩
  | .hbm, ⟨35, _⟩ => ⟨S740000, .i32⟩
  | .hbm, ⟨36, _⟩ => ⟨S740000, .i32⟩
  | .hbm, ⟨37, _⟩ => ⟨S740000x1, .i32⟩
  | .hbm, ⟨38, _⟩ => ⟨S740000x128, .f32⟩
  | .hbm, ⟨39, _⟩ => ⟨S_, .f32⟩
  | .hbm, ⟨40, _⟩ => ⟨S100000x128, .f32⟩
  | .hbm, ⟨41, _⟩ => ⟨S740000x1, .i32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x64, .f32⟩
  | .hbm, ⟨46, _⟩ => ⟨S_, .i32⟩
  | .hbm, ⟨47, _⟩ => ⟨S740000, .i32⟩
  | .hbm, ⟨48, _⟩ => ⟨S740000, .i1⟩
  | .hbm, ⟨49, _⟩ => ⟨S_, .i32⟩
  | .hbm, ⟨50, _⟩ => ⟨S740000, .i32⟩
  | .hbm, ⟨51, _⟩ => ⟨S740000, .i32⟩
  | .hbm, ⟨52, _⟩ => ⟨S740000, .i32⟩
  | .hbm, ⟨53, _⟩ => ⟨S740000x1, .i32⟩
  | .hbm, ⟨54, _⟩ => ⟨S740000x64, .f32⟩
  | .hbm, ⟨55, _⟩ => ⟨S_, .f32⟩
  | .hbm, ⟨56, _⟩ => ⟨S100000x64, .f32⟩
  | .hbm, ⟨57, _⟩ => ⟨S740000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x1, .i32⟩
  | .hbm, ⟨62, _⟩ => ⟨S256x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x64, .f32⟩
  | .local _ .vmem, ⟨17, _⟩ => ⟨S10000x1, .f32⟩
  | .local _ .vmem, ⟨18, _⟩ => ⟨S10000x1, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x1, .i32⟩
  | .local _ .vmem, ⟨31, _⟩ => ⟨S10000x1, .i32⟩
  | .local _ .vmem, ⟨32, _⟩ => ⟨S256x64, .f32⟩
  | .local _ .vmem, ⟨33, _⟩ => ⟨S256x64, .f32⟩
  | .local _ .vmem, ⟨34, _⟩ => ⟨S256x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_scratch0 : Ref sig .tc := ⟨.vmem, 33, rfl⟩
abbrev cc4_scratch1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_13 : BitVec 32 := 0#32
  let v29 : BitVec 1 := Scalar.cmpi .ne v28 c0_i32_13
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S10000x256_d1_w32 : S10000x256.Iotas .tc 32 [1]
  broadcasts_S10000x1_S10000x256 : S10000x1.Broadcasts S10000x256
  natLt_1_32 : 1 < 32
  transposes_S10000x256_p1_0_S256x10000 : S10000x256.Transposes [1, 0] S256x10000
  reduces_S10000x256_S256 : S10000x256.Reduces [0] S256
  shapeCasts_S256_S1x256 : S256.ShapeCasts S1x256
  transposes_S1x256_p1_0_S256x1 : S1x256.Transposes [1, 0] S256x1
  broadcasts_S256x1_S256x64 : S256x1.Broadcasts S256x64
  scatter_S100000_S740000x1_S740000_n_0_0_1_wf : ScatterDims.WF S100000 S740000x1 S740000 [] [0] [0] 1
  dot_S10000x128_S128x128_S10000x128_1_0_0_1_n_n_wf : DotDims.WF S10000x128 S128x128 S10000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S10000x128_S128x64_S10000x64_1_0_0_1_n_n_wf : DotDims.WF S10000x128 S128x64 S10000x64 [1] [0] [0] [1] [] []
  gather_S100000x64_S740000x1_S740000x64_1_0_n_n_0_1_164_wf : GatherDims.WF S100000x64 S740000x1 S740000x64 [1] [0] [] [0] [] 1 ![1, 64]
  scatter_S100000x64_S740000x1_S740000x64_1_0_0_1_wf : ScatterDims.WF S100000x64 S740000x1 S740000x64 [1] [0] [0] 1
  dot_S256x10000_S10000x64_S256x64_1_0_0_1_n_n_wf : DotDims.WF S256x10000 S10000x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .i32 = 32 ∨ (Rect.block (s := S100000x1) S10000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x64.size a ≤ S256x64.size a
  hwx4_2 : ∀ i : grid4.Coords, EltTy.bits .f32 = 32 ∨ (Rect.block (s := S256x64) S256x64.size (cc4_transform_2 i) (hinb4_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S740000x1_S740000x64_1_0_n_n_0_1_164 : GatherDims S100000x64 S740000x1 S740000x64 where
  offsetDims := [1]
  collapsedSliceDims := [0]
  operandBatchingDims := []
  startIndicesBatchingDims := []
  startIndexMap := [0]
  indexVectorDim := 1
  sliceSizes := ![1, 64]
  wf := gather_S100000x64_S740000x1_S740000x64_1_0_n_n_0_1_164_wf
def scatter_S100000x64_S740000x1_S740000x64_1_0_0_1 : ScatterDims S100000x64 S740000x1 S740000x64 where
  updateWindowDims := [1]
  insertedWindowDims := [0]
  scatterDimsToOperandDims := [0]
  indexVectorDim := 1
  wf := scatter_S100000x64_S740000x1_S740000x64_1_0_0_1_wf
def dot_S256x10000_S10000x64_S256x64_1_0_0_1_n_n : DotDims S256x10000 S10000x64 S256x64 where
  lhsContracting := [1]
  rhsContracting := [0]
  lhsNonContracting := [0]
  rhsNonContracting := [1]
  lhsBatch := []
  rhsBatch := []
  wf := dot_S256x10000_S10000x64_S256x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v41) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S256x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩
abbrev S100000x64 : Shape := ⟨2, ![100000, 64]⟩
abbrev S740000x64 : Shape := ⟨2, ![740000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x640000, .i32⟩
  | .hbm, ⟨9, _⟩ => ⟨S640000, .i32⟩
  | .hbm, ⟨10, _⟩ => ⟨S740000, .i32⟩
  | .hbm, ⟨11, _⟩ => ⟨S1x640000, .i32⟩
  | .hbm, ⟨12, _⟩ => ⟨S640000, .i32⟩
  | .hbm, ⟨13, _⟩ => ⟨S740000, .i32⟩
  | .hbm, ⟨14, _⟩ => ⟨S_, .f32⟩
  | .hbm, ⟨15, _⟩ => ⟨S740000, .f32⟩
  | .hbm, ⟨16, _⟩ => ⟨S_, .f32⟩
  | .hbm, ⟨17, _⟩ => ⟨S100000, .f32⟩
  | .hbm, ⟨18, _⟩ => ⟨S740000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S740000, .i32⟩
  | .hbm, ⟨30, _⟩ => ⟨S740000, .i1⟩
  | .hbm, ⟨31, _⟩ => ⟨S_, .i32⟩
  | .hbm, ⟨32, _⟩ => ⟨S740000, .i32⟩
  | .hbm, ⟨33, _⟩ => ⟨S740000, .i32⟩
  | .hbm, ⟨34, _⟩ => ⟨S740000, .i32⟩
  | .hbm, ⟨35, _⟩ => ⟨S740000x1, .i32⟩
  | .hbm, ⟨36, _⟩ => ⟨S740000, .f32⟩
  | .hbm, ⟨37, _⟩ => ⟨S_, .i32⟩
  | .hbm, ⟨38, _⟩ => ⟨S740000, .i32⟩
  | .hbm, ⟨39, _⟩ => ⟨S740000, .i1⟩
  | .hbm, ⟨40, _⟩ => ⟨S_, .i32⟩
  | .hbm, ⟨41, _⟩ => ⟨S740000, .i32⟩
  | .hbm, ⟨42, _⟩ => ⟨S740000, .i32⟩
  | .hbm, ⟨43, _⟩ => ⟨S740000, .i32⟩
  | .hbm, ⟨44, _⟩ => ⟨S740000x1, .i32⟩
  | .hbm, ⟨45, _⟩ => ⟨S740000, .f32⟩
  | .hbm, ⟨46, _⟩ => ⟨S740000, .f32⟩
  | .hbm, ⟨47, _⟩ => ⟨S100000x128, .f32⟩
  | .hbm, ⟨48, _⟩ => ⟨S740000x1, .f32⟩
  | .hbm, ⟨49, _⟩ => ⟨S_, .i32⟩
  | .hbm, ⟨50, _⟩ => ⟨S740000, .i32⟩
  | .hbm, ⟨51, _⟩ => ⟨S740000, .i1⟩
  | .hbm, ⟨52, _⟩ => ⟨S_, .i32⟩
  | .hbm, ⟨53, _⟩ => ⟨S740000, .i32⟩
  | .hbm, ⟨54, _⟩ => ⟨S740000, .i32⟩
  | .hbm, ⟨55, _⟩ => ⟨S740000, .i32⟩
  | .hbm, ⟨56, _⟩ => ⟨S740000x1, .i32⟩
  | .hbm, ⟨57, _⟩ => ⟨S740000x128, .f32⟩
  | .hbm, ⟨58, _⟩ => ⟨S740000x128, .f32⟩
  | .hbm, ⟨59, _⟩ => ⟨S740000x128, .f32⟩
  | .hbm, ⟨60, _⟩ => ⟨S_, .f32⟩
  | .hbm, ⟨61, _⟩ => ⟨S100000x128, .f32⟩
  | .hbm, ⟨62, _⟩ => ⟨S740000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x64, .f32⟩
  | .hbm, ⟨71, _⟩ => ⟨S740000x1, .f32⟩
  | .hbm, ⟨72, _⟩ => ⟨S_, .i32⟩
  | .hbm, ⟨73, _⟩ => ⟨S740000, .i32⟩
  | .hbm, ⟨74, _⟩ => ⟨S740000, .i1⟩
  | .hbm, ⟨75, _⟩ => ⟨S_, .i32⟩
  | .hbm, ⟨76, _⟩ => ⟨S740000, .i32⟩
  | .hbm, ⟨77, _⟩ => ⟨S740000, .i32⟩
  | .hbm, ⟨78, _⟩ => ⟨S740000, .i32⟩
  | .hbm, ⟨79, _⟩ => ⟨S740000x1, .i32⟩
  | .hbm, ⟨80, _⟩ => ⟨S740000x64, .f32⟩
  | .hbm, ⟨81, _⟩ => ⟨S740000x64, .f32⟩
  | .hbm, ⟨82, _⟩ => ⟨S740000x64, .f32⟩
  | .hbm, ⟨83, _⟩ => ⟨S_, .f32⟩
  | .hbm, ⟨84, _⟩ => ⟨S100000x64, .f32⟩
  | .hbm, ⟨85, _⟩ => ⟨S740000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S256x64, .f32⟩
  | .hbm, ⟨92, _⟩ => ⟨S100000x1, .i32⟩
  | .hbm, ⟨93, _⟩ => ⟨S256x64, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S256, .f32⟩
  | .hbm, ⟨98, _⟩ => ⟨S100000x1, .i32⟩
  | .hbm, ⟨99, _⟩ => ⟨S256, .f32⟩
  | .hbm, ⟨100, _⟩ => ⟨S_, .f32⟩
  | .hbm, ⟨101, _⟩ => ⟨S_, .f32⟩
  | .hbm, ⟨102, _⟩ => ⟨S256, .f32⟩
  | .hbm, ⟨103, _⟩ => ⟨S256, .f32⟩
  | .hbm, ⟨104, _⟩ => ⟨S256x1, .f32⟩
  | .hbm, ⟨105, _⟩ => ⟨S256x64, .f32⟩
  | .hbm, ⟨106, _⟩ => ⟨S256x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_call2_v0 : Ref sig .tc := ⟨.hbm, 101, rfl⟩
abbrev main_call2_v1 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S740000x1_S740000x64_0_1 : S740000x1.BroadcastsInDim S740000x64 (![0, 1] : Fin 2 → Fin S740000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x64_S100000x64_1_0_0_1_n_n_wf : DotDims.WF S100000x128 S128x64 S100000x64 [1] [0] [0] [1] [] []
  gather_S100000x64_S740000x1_S740000x64_1_0_n_n_0_1_164_wf : GatherDims.WF S100000x64 S740000x1 S740000x64 [1] [0] [] [0] [] 1 ![1, 64]
  scatter_S100000x64_S740000x1_S740000x64_1_0_0_1_wf : ScatterDims.WF S100000x64 S740000x1 S740000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S740000x1_S740000x64_1_0_n_n_0_1_164 : GatherDims S100000x64 S740000x1 S740000x64 where
  offsetDims := [1]
  collapsedSliceDims := [0]
  operandBatchingDims := []
  startIndicesBatchingDims := []
  startIndexMap := [0]
  indexVectorDim := 1
  sliceSizes := ![1, 64]
  wf := gather_S100000x64_S740000x1_S740000x64_1_0_n_n_0_1_164_wf
def scatter_S100000x64_S740000x1_S740000x64_1_0_0_1 : ScatterDims S100000x64 S740000x1 S740000x64 where
  updateWindowDims := [1]
  insertedWindowDims := [0]
  scatterDimsToOperandDims := [0]
  indexVectorDim := 1
  wf := scatter_S100000x64_S740000x1_S740000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

class Facts : Prop extends Facts₀ where

variable [Facts]
-- ==== Proof.KI.R0.lean ====
import proofs.«417436_j16896401342873_2_alg».proof.Proof.Gen.KernelIdeal.Launch
import proofs.«417436_j16896401342873_2_alg».proof.Proof.Gen.KernelIdeal.Skeleton
import proofs.«417436_j16896401342873_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

theorem holds0_0 {c : Dev nD} (dat : Dat τ (Elt F) Unit ℕ (UR sig nD τ) ℕ cfg0 c)
    (harr : dat.A 0 = V c (Pipeline.arrRef spec0 0)) (hsame : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := fun t => by
    rw [hsame]; unfold Dat.blockOf iblk0; rw [harr]; try rfl
  refine (dat.before_in_eq_fetched 0 rfl (fun _ => rfl) (fun _ _ _ => rfl) hkeep t d).trans ?_
  unfold Dat.fetched Dat.blockOf iblk0; rw [harr]; try rfl

theorem holds0_1 {c : Dev nD} (dat : Dat τ (Elt F) Unit ℕ (UR sig nD τ) ℕ cfg0 c)
    (harr : dat.A 1 = V c (Pipeline.arrRef spec0 1)) (hsame : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := fun t => by
    rw [hsame]; unfold Dat.blockOf iblk0; rw [harr]; try rfl
  refine (dat.before_in_eq_fetched 1 rfl (fun _ => rfl) (fun _ _ _ => rfl) hkeep t d).trans ?_
  unfold Dat.fetched Dat.blockOf iblk0; rw [harr]; try rfl

theorem holds0_2 {c : Dev nD} (dat : Dat τ (Elt F) Unit ℕ (UR sig nD τ) ℕ cfg0 c)
    (harr : dat.A 2 = V c (Pipeline.arrRef spec0 2)) (hsame : ∀ t, dat.after 2 t = iblk0 V c 2 t)
    (t : Fin cfg0.N) (d) : dat.before 2 t d = iblk0 V c 2 t := by
  have hkeep : ∀ t, (cfg0.win 2).cut (cfg0.grid.coords t) (dat.after 2 t) = dat.blockOf 2 t := fun t => by
    rw [hsame]; unfold Dat.blockOf iblk0; rw [harr]; try rfl
  refine (dat.before_in_eq_fetched 2 rfl (fun _ => rfl) (fun _ _ _ => rfl) hkeep t d).trans ?_
  unfold Dat.fetched Dat.blockOf iblk0; rw [harr]; try rfl

abbrev whole0_x : Rect S10000x128 := Rect.unit (s := S10000x128) ![0, 0] S10000x128.size inb_S10000x128_S10000x128_0_0
abbrev whole0_w : Rect S128x128 := Rect.unit (s := S128x128) ![0, 0] S128x128.size inb_S128x128_S128x128_0_0
abbrev whole0_s : Rect S10000x1 := Rect.unit (s := S10000x1) ![0, 0] S10000x1.size inb_S10000x1_S10000x1_0_0

def out0_3 (x0 : Vec F S10000x128 .f32) (x1 : Vec F S128x128 .f32) (x2 : Vec F S10000x1 .f32) : Vec F S10000x128 .f32 :=
  View.canon [⟨whole0_x, k0_pay1 (View.ld x0 whole0_x) (View.ld x1 whole0_w) (View.ld x2 whole0_s)⟩]

theorem full0_3 (p : Vec F S10000x128 .f32) (y : S10000x128.Idx) :
    ∃ pc ∈ ([⟨whole0_x, p⟩] : List (View.Piece (Elt F) S10000x128 .f32)), y ∈ pc.1.set :=
  View.cover_of_wholeMem _ (View.Piece.wholeMem_here (by rfl)) y

set_option maxHeartbeats 1000000 in

theorem sound_kernel0 (c : Dev nD) (E : Set ℕ) (i : grid0.Coords)
    (a1 : Memref sig .tc .vmem S10000x128 .f32) (h1 : a1.IsWhole) (a2 : Memref sig .tc .vmem S128x128 .f32) (h2 : a2.IsWhole)
    (a3 : Memref sig .tc .vmem S10000x1 .f32) (h3 : a3.IsWhole) (a4 : Memref sig .tc .vmem S10000x128 .f32) (h4 : a4.IsWhole)
    (x0 : Vec F S10000x128 .f32) (x1 : Vec F S128x128 .f32) (x2 : Vec F S10000x1 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out0_3 x0 x1 x2)) -∗ K ⟨⟩))
      ⊢ wp frame (wpE (defs₀ (F := F)) Variants.none c none) E (cc0__matmul_scale_kernel i a1 h1 a2 h2 a3 h3 a4 h4) K := by
  simp only [cc0__matmul_scale_kernel_eq_skeleton]; unfold cc0__matmul_scale_kernel_skel
  unfold owns
  iintro ⟨⟨%f1, %e1, B1⟩, ⟨%f2, %e2, B2⟩, ⟨%f3, %e3, B3⟩, ⟨%d4, %f4, -, B4⟩, Hk⟩
  subst e1 e2 e3
  sl_exec
  sl_step
  iapply Hk
  isplitl [B1]
  · iexists f1; isplitr; · ipureintro; rfl
    iexact B1
  isplitl [B2]
  · iexists f2; isplitr; · ipureintro; rfl
    iexact B2
  isplitl [B3]
  · iexists f3; isplitr; · ipureintro; rfl
    iexact B3
  iexists _; isplitr
  swap; · iexact B4
  ipureintro
  exact View.read_writes_eq_canon _ _ _ (full0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  holds0_0 V (dat0 V c) (A_eq0 V c 0) (after0_0 V c) t d
theorem before0_1 (c : Dev nD) (t : Fin cfg0.N) (d) : (dat0 V c).before 1 t d = iblk0 V c 1 t :=
  holds0_1 V (dat0 V c) (A_eq0 V c 1) (after0_1 V c) t d
theorem before0_2 (c : Dev nD) (t : Fin cfg0.N) (d) : (dat0 V c).before 2 t d = iblk0 V c 2 t :=
  holds0_2 V (dat0 V c) (A_eq0 V c 2) (after0_2 V c) t d

def given0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def taken0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    given0 V c t ⊢ wp frame (wpE (defs₀ (F := F)) Variants.none c none) Set.univ (bodyAt0 t) (fun _ => taken0 V c t) := by
  unfold given0 taken0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, B0⟩, ⟨%d1, B1⟩, ⟨%d2, B2⟩, ⟨%d3, B3⟩⟩
  iapply (sound_kernel0 c Set.univ _ _ _ _ _ _ _ _ _ (iblk0 V c 0 t) (iblk0 V c 1 t) (iblk0 V c 2 t) _)
  isplitl [B0]; · iexact B0
  isplitl [B1]; · iexact B1
  isplitl [B2]; · iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«417436_j16896401342873_2_alg».proof.Proof.Gen.KernelIdeal.Launch
import proofs.«417436_j16896401342873_2_alg».proof.Proof.Gen.KernelIdeal.Skeleton
import proofs.«417436_j16896401342873_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem aggHeld1_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem dinvHeld1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem biasHeld1_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev wholeWide1 : Rect S10000x128 := Rect.unit (s := S10000x128) ![0, 0] S10000x128.size inb_S10000x128_S10000x128_0_0

abbrev wholeCol1 : Rect S10000x1 := Rect.unit (s := S10000x1) ![0, 0] S10000x1.size inb_S10000x1_S10000x1_0_0

abbrev wholeRow1 : Rect S1x128 := Rect.unit (s := S1x128) ![0, 0] S1x128.size inb_S1x128_S1x128_0_0

def out1_3 (x0 : Vec F S10000x128 .f32) (x1 : Vec F S10000x1 .f32) (x2 : Vec F S1x128 .f32) : Vec F S10000x128 .f32 :=
  View.canon [⟨wholeWide1, k1_pay1 (View.ld x0 wholeWide1) (View.ld x1 wholeCol1) (View.ld x2 wholeRow1)⟩]

theorem storeCovers1 (p0 : Vec F S10000x128 .f32) (y : S10000x128.Idx) :
    ∃ pc ∈ ([⟨wholeWide1, p0⟩] : List (View.Piece (Elt F) S10000x128 .f32)), y ∈ pc.1.set :=
  View.cover_of_tiled [⟨wholeWide1, p0⟩] S10000x128.size (by rfl) y

set_option maxHeartbeats 1000000 in

theorem kernelTriple1 (c : Dev nD) (E : Set ℕ) (i : grid1.Coords)
    (arg1 : Memref sig .tc .vmem S10000x128 .f32) (harg1 : arg1.IsWhole) (arg2 : Memref sig .tc .vmem S10000x1 .f32) (harg2 : arg2.IsWhole)
    (arg3 : Memref sig .tc .vmem S1x128 .f32) (harg3 : arg3.IsWhole) (arg4 : Memref sig .tc .vmem S10000x128 .f32) (harg4 : arg4.IsWhole)
    (x0 : Vec F S10000x128 .f32) (x1 : Vec F S10000x1 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_k i arg1 harg1 arg2 harg2 arg3 harg3 arg4 harg4) K := by
  simp only [cc1_k_eq_skeleton]; unfold cc1_k_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (storeCovers1 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem aggHeld1 (c : Dev nD) (t : Fin cfg1.N) (d) : (dat1 V c).before 0 t d = iblk1 V c 0 t :=
  aggHeld1_of V (dat1 V c) (A_eq1 V c 0) (after1_0 V c) t d
theorem dinvHeld1 (c : Dev nD) (t : Fin cfg1.N) (d) : (dat1 V c).before 1 t d = iblk1 V c 1 t :=
  dinvHeld1_of V (dat1 V c) (A_eq1 V c 1) (after1_1 V c) t d
theorem biasHeld1 (c : Dev nD) (t : Fin cfg1.N) (d) : (dat1 V c).before 2 t d = iblk1 V c 2 t :=
  biasHeld1_of V (dat1 V c) (A_eq1 V c 2) (after1_2 V c) t d

def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem bodyTriple1 (c : Dev nD) (t : Fin cfg1.N) :
    handed1 V c t ⊢ wp frame (wpE (defs₀ (F := F)) Variants.none c none) Set.univ (bodyAt1 t) (fun _ => returned1 V c t) := by
  unfold handed1 returned1 bodyAt1
  simp only [aggHeld1, dinvHeld1, biasHeld1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (kernelTriple1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact bodyTriple1 V c t

end Cert.KernelIdeal.Hand

end
-- ==== Proof.KI.R2.lean ====
import proofs.«417436_j16896401342873_2_alg».proof.Proof.Gen.KernelIdeal.Launch
import proofs.«417436_j16896401342873_2_alg».proof.Proof.Gen.KernelIdeal.Skeleton
import proofs.«417436_j16896401342873_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

theorem holds2_0 {c : Dev nD} (dat : Dat τ (Elt F) Unit ℕ (UR sig nD τ) ℕ cfg2 c)
    (harr : dat.A 0 = V c (Pipeline.arrRef spec2 0)) (hsame : ∀ t, dat.after 0 t = iblk2 V c 0 t)
    (t : Fin cfg2.N) (d) : dat.before 0 t d = iblk2 V c 0 t := by
  have hkeep : ∀ t, (cfg2.win 0).cut (cfg2.grid.coords t) (dat.after 0 t) = dat.blockOf 0 t := fun t => by
    rw [hsame]; unfold Dat.blockOf iblk2; rw [harr]; try rfl
  refine (dat.before_in_eq_fetched 0 rfl (fun _ => rfl) (fun _ _ _ => rfl) hkeep t d).trans ?_
  unfold Dat.fetched Dat.blockOf iblk2; rw [harr]; try rfl

theorem holds2_1 {c : Dev nD} (dat : Dat τ (Elt F) Unit ℕ (UR sig nD τ) ℕ cfg2 c)
    (harr : dat.A 1 = V c (Pipeline.arrRef spec2 1)) (hsame : ∀ t, dat.after 1 t = iblk2 V c 1 t)
    (t : Fin cfg2.N) (d) : dat.before 1 t d = iblk2 V c 1 t := by
  have hkeep : ∀ t, (cfg2.win 1).cut (cfg2.grid.coords t) (dat.after 1 t) = dat.blockOf 1 t := fun t => by
    rw [hsame]; unfold Dat.blockOf iblk2; rw [harr]; try rfl
  refine (dat.before_in_eq_fetched 1 rfl (fun _ => rfl) (fun _ _ _ => rfl) hkeep t d).trans ?_
  unfold Dat.fetched Dat.blockOf iblk2; rw [harr]; try rfl

theorem holds2_2 {c : Dev nD} (dat : Dat τ (Elt F) Unit ℕ (UR sig nD τ) ℕ cfg2 c)
    (harr : dat.A 2 = V c (Pipeline.arrRef spec2 2)) (hsame : ∀ t, dat.after 2 t = iblk2 V c 2 t)
    (t : Fin cfg2.N) (d) : dat.before 2 t d = iblk2 V c 2 t := by
  have hkeep : ∀ t, (cfg2.win 2).cut (cfg2.grid.coords t) (dat.after 2 t) = dat.blockOf 2 t := fun t => by
    rw [hsame]; unfold Dat.blockOf iblk2; rw [harr]; try rfl
  refine (dat.before_in_eq_fetched 2 rfl (fun _ => rfl) (fun _ _ _ => rfl) hkeep t d).trans ?_
  unfold Dat.fetched Dat.blockOf iblk2; rw [harr]; try rfl

abbrev whole2_x : Rect S10000x128 := Rect.unit (s := S10000x128) ![0, 0] S10000x128.size inb_S10000x128_S10000x128_0_0
abbrev whole2_w : Rect S128x64 := Rect.unit (s := S128x64) ![0, 0] S128x64.size inb_S128x64_S128x64_0_0
abbrev whole2_s : Rect S10000x1 := Rect.unit (s := S10000x1) ![0, 0] S10000x1.size inb_S10000x1_S10000x1_0_0
abbrev whole2_o : Rect S10000x64 := Rect.unit (s := S10000x64) ![0, 0] S10000x64.size inb_S10000x64_S10000x64_0_0

def out2_3 (x0 : Vec F S10000x128 .f32) (x1 : Vec F S128x64 .f32) (x2 : Vec F S10000x1 .f32) : Vec F S10000x64 .f32 :=
  View.canon [⟨whole2_o, k2_pay1 (View.ld x0 whole2_x) (View.ld x1 whole2_w) (View.ld x2 whole2_s)⟩]

theorem full2_3 (p : Vec F S10000x64 .f32) (y : S10000x64.Idx) :
    ∃ pc ∈ ([⟨whole2_o, p⟩] : List (View.Piece (Elt F) S10000x64 .f32)), y ∈ pc.1.set :=
  View.cover_of_wholeMem _ (View.Piece.wholeMem_here (by rfl)) y

set_option maxHeartbeats 1000000 in

theorem sound_kernel2 (c : Dev nD) (E : Set ℕ) (i : grid2.Coords)
    (a1 : Memref sig .tc .vmem S10000x128 .f32) (h1 : a1.IsWhole) (a2 : Memref sig .tc .vmem S128x64 .f32) (h2 : a2.IsWhole)
    (a3 : Memref sig .tc .vmem S10000x1 .f32) (h3 : a3.IsWhole) (a4 : Memref sig .tc .vmem S10000x64 .f32) (h4 : a4.IsWhole)
    (x0 : Vec F S10000x128 .f32) (x1 : Vec F S128x64 .f32) (x2 : Vec F S10000x1 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out2_3 x0 x1 x2)) -∗ K ⟨⟩))
      ⊢ wp frame (wpE (defs₀ (F := F)) Variants.none c none) E (cc2__matmul_scale_kernel i a1 h1 a2 h2 a3 h3 a4 h4) K := by
  simp only [cc2__matmul_scale_kernel_eq_skeleton]; unfold cc2__matmul_scale_kernel_skel
  unfold owns
  iintro ⟨⟨%f1, %e1, B1⟩, ⟨%f2, %e2, B2⟩, ⟨%f3, %e3, B3⟩, ⟨%d4, %f4, -, B4⟩, Hk⟩
  subst e1 e2 e3
  sl_exec
  sl_step
  iapply Hk
  isplitl [B1]
  · iexists f1; isplitr; · ipureintro; rfl
    iexact B1
  isplitl [B2]
  · iexists f2; isplitr; · ipureintro; rfl
    iexact B2
  isplitl [B3]
  · iexists f3; isplitr; · ipureintro; rfl
    iexact B3
  iexists _; isplitr
  swap; · iexact B4
  ipureintro
  exact View.read_writes_eq_canon _ _ _ (full2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  holds2_0 V (dat2 V c) (A_eq2 V c 0) (after2_0 V c) t d
theorem before2_1 (c : Dev nD) (t : Fin cfg2.N) (d) : (dat2 V c).before 1 t d = iblk2 V c 1 t :=
  holds2_1 V (dat2 V c) (A_eq2 V c 1) (after2_1 V c) t d
theorem before2_2 (c : Dev nD) (t : Fin cfg2.N) (d) : (dat2 V c).before 2 t d = iblk2 V c 2 t :=
  holds2_2 V (dat2 V c) (A_eq2 V c 2) (after2_2 V c) t d

def given2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def taken2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    given2 V c t ⊢ wp frame (wpE (defs₀ (F := F)) Variants.none c none) Set.univ (bodyAt2 t) (fun _ => taken2 V c t) := by
  unfold given2 taken2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, B0⟩, ⟨%d1, B1⟩, ⟨%d2, B2⟩, ⟨%d3, B3⟩⟩
  iapply (sound_kernel2 c Set.univ _ _ _ _ _ _ _ _ _ (iblk2 V c 0 t) (iblk2 V c 1 t) (iblk2 V c 2 t) _)
  isplitl [B0]; · iexact B0
  isplitl [B1]; · iexact B1
  isplitl [B2]; · iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«417436_j16896401342873_2_alg».proof.Proof.Gen.KernelIdeal.Launch
import proofs.«417436_j16896401342873_2_alg».proof.Proof.Gen.KernelIdeal.Skeleton
import proofs.«417436_j16896401342873_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem aggHeld3_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem dinvHeld3_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem biasHeld3_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev wholeWide3 : Rect S10000x64 := Rect.unit (s := S10000x64) ![0, 0] S10000x64.size inb_S10000x64_S10000x64_0_0

abbrev wholeCol3 : Rect S10000x1 := Rect.unit (s := S10000x1) ![0, 0] S10000x1.size inb_S10000x1_S10000x1_0_0

abbrev wholeRow3 : Rect S1x64 := Rect.unit (s := S1x64) ![0, 0] S1x64.size inb_S1x64_S1x64_0_0

def out3_3 (x0 : Vec F S10000x64 .f32) (x1 : Vec F S10000x1 .f32) (x2 : Vec F S1x64 .f32) : Vec F S10000x64 .f32 :=
  View.canon [⟨wholeWide3, k3_pay1 (View.ld x0 wholeWide3) (View.ld x1 wholeCol3) (View.ld x2 wholeRow3)⟩]

theorem storeCovers3 (p0 : Vec F S10000x64 .f32) (y : S10000x64.Idx) :
    ∃ pc ∈ ([⟨wholeWide3, p0⟩] : List (View.Piece (Elt F) S10000x64 .f32)), y ∈ pc.1.set :=
  View.cover_of_tiled [⟨wholeWide3, p0⟩] S10000x64.size (by rfl) y

set_option maxHeartbeats 1000000 in

theorem kernelTriple3 (c : Dev nD) (E : Set ℕ) (i : grid3.Coords)
    (arg1 : Memref sig .tc .vmem S10000x64 .f32) (harg1 : arg1.IsWhole) (arg2 : Memref sig .tc .vmem S10000x1 .f32) (harg2 : arg2.IsWhole)
    (arg3 : Memref sig .tc .vmem S1x64 .f32) (harg3 : arg3.IsWhole) (arg4 : Memref sig .tc .vmem S10000x64 .f32) (harg4 : arg4.IsWhole)
    (x0 : Vec F S10000x64 .f32) (x1 : Vec F S10000x1 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3_k i arg1 harg1 arg2 harg2 arg3 harg3 arg4 harg4) K := by
  simp only [cc3_k_eq_skeleton]; unfold cc3_k_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (storeCovers3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem aggHeld3 (c : Dev nD) (t : Fin cfg3.N) (d) : (dat3 V c).before 0 t d = iblk3 V c 0 t :=
  aggHeld3_of V (dat3 V c) (A_eq3 V c 0) (after3_0 V c) t d
theorem dinvHeld3 (c : Dev nD) (t : Fin cfg3.N) (d) : (dat3 V c).before 1 t d = iblk3 V c 1 t :=
  dinvHeld3_of V (dat3 V c) (A_eq3 V c 1) (after3_1 V c) t d
theorem biasHeld3 (c : Dev nD) (t : Fin cfg3.N) (d) : (dat3 V c).before 2 t d = iblk3 V c 2 t :=
  biasHeld3_of V (dat3 V c) (A_eq3 V c 2) (after3_2 V c) t d

def handed3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def returned3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem bodyTriple3 (c : Dev nD) (t : Fin cfg3.N) :
    handed3 V c t ⊢ wp frame (wpE (defs₀ (F := F)) Variants.none c none) Set.univ (bodyAt3 t) (fun _ => returned3 V c t) := by
  unfold handed3 returned3 bodyAt3
  simp only [aggHeld3, dinvHeld3, biasHeld3]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (kernelTriple3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact bodyTriple3 V c t

end Cert.KernelIdeal.Hand

end
-- ==== Proof.KI.R4.lean ====
import proofs.«417436_j16896401342873_2_alg».proof.Proof.Gen.KernelIdeal.Launch
import proofs.«417436_j16896401342873_2_alg».proof.Proof.Gen.KernelIdeal.Skeleton
import proofs.«417436_j16896401342873_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def scrAt (c : Dev nD) : (n : ℕ) → n < cfg4.N → Vec F S256x64 .f32 × Vec F S256x1 .f32
  | 0, hn => (k4_pay4 (iblk4 V c 1 ⟨0, hn⟩) k4_pay1 (iblk4 V c 0 ⟨0, hn⟩), k4_pay5 (iblk4 V c 1 ⟨0, hn⟩) k4_pay2)
  | n + 1, hn => (k4_pay4 (iblk4 V c 1 ⟨n + 1, hn⟩) (scrAt c n (Nat.lt_of_succ_lt hn)).1 (iblk4 V c 0 ⟨n + 1, hn⟩),
      k4_pay5 (iblk4 V c 1 ⟨n + 1, hn⟩) (scrAt c n (Nat.lt_of_succ_lt hn)).2)

theorem scrAt_succ (c : Dev nD) (n : ℕ) (hn : n + 1 < cfg4.N) :
    scrAt V c (n + 1) hn = (k4_pay4 (iblk4 V c 1 ⟨n + 1, hn⟩) (scrAt V c n (Nat.lt_of_succ_lt hn)).1 (iblk4 V c 0 ⟨n + 1, hn⟩),
      k4_pay5 (iblk4 V c 1 ⟨n + 1, hn⟩) (scrAt V c n (Nat.lt_of_succ_lt hn)).2) := rfl

theorem lt_N4 : 9 < cfg4.N := by rw [show cfg4.N = 10 from N_4]; decide

def pooled4 (c : Dev nD) : Vec F S256x64 .f32 :=
  k4_pay6 (scrAt V c 9 lt_N4).2 (scrAt V c 9 lt_N4).1

def PhiS4 (c : Dev nD) : (n : ℕ) → n ≤ cfg4.N → sProp 𝕄
  | 0, _ => Pipeline.ΦA spec4 c
  | n + 1, hn => iprop(iprop(iprop(owns (c : Thread nD τ) (Memref.whole cc4_scratch0) fullShare (scrAt V c n hn).1
        ∗ owns (c : Thread nD τ) (Memref.whole cc4_scratch1) fullShare (scrAt V c n hn).2)
        ∗ Pipeline.scopedRestBut (Ix := Unit) (Name := ℕ) (U := UR sig nD τ) (Lvl := ℕ) (Val := Elt F) spec4 c [cc4_scratch0, cc4_scratch1])
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => pooled4 V c
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = pooled4 V c := by dsimp only [dat4]

theorem zeros2 : (![0, 0] : Fin 2 → Nat) = fun _ => 0 := funext fun a => by fin_cases a <;> rfl

abbrev first4 (i : grid4.Coords) : Prop :=
  (Scalar.cmpi .ne (Scalar.extui (Scalar.cmpi .eq (BitVec.ofNat 32 (i 0).val) 0#32)) 0#32) = 1#1

abbrev last4 (i : grid4.Coords) : Prop := k4_cond2 i = 1#1

theorem ld_S10000x64 {Val : EltTy → Type} {e : EltTy} (X : S10000x64.Idx → Val e) :
    View.ld X (Rect.unit (s := S10000x64) ![0, 0] S10000x64.size inb_S10000x64_S10000x64_0_0) = X := View.ld_unit_zero (S := S10000x64) zeros2 _ X
theorem ld_S10000x1 {Val : EltTy → Type} {e : EltTy} (X : S10000x1.Idx → Val e) :
    View.ld X (Rect.unit (s := S10000x1) ![0, 0] S10000x1.size inb_S10000x1_S10000x1_0_0) = X := View.ld_unit_zero (S := S10000x1) zeros2 _ X
theorem ld_S256x64 {Val : EltTy → Type} {e : EltTy} (X : S256x64.Idx → Val e) :
    View.ld X (Rect.unit (s := S256x64) ![0, 0] S256x64.size inb_S256x64_S256x64_0_0) = X := View.ld_unit_zero (S := S256x64) zeros2 _ X
theorem ld_S256x1 {Val : EltTy → Type} {e : EltTy} (X : S256x1.Idx → Val e) :
    View.ld X (Rect.unit (s := S256x1) ![0, 0] S256x1.size inb_S256x1_S256x1_0_0) = X := View.ld_unit_zero (S := S256x1) zeros2 _ X

theorem readAt_S10000x64 {sg : RefSig} {κ : Kind} {sp : Space} {e : EltTy} {Val : EltTy → Type} (v : View sg κ sp S10000x64 e) (f : v.ty.Contents Val) :
    v.readAt Val (Rect.unit (s := S10000x64) ![0, 0] S10000x64.size inb_S10000x64_S10000x64_0_0).toLoadRect f = v.read Val f :=
  (View.readAt_eq_ld v f _).trans (ld_S10000x64 _)
theorem readAt_S10000x1 {sg : RefSig} {κ : Kind} {sp : Space} {e : EltTy} {Val : EltTy → Type} (v : View sg κ sp S10000x1 e) (f : v.ty.Contents Val) :
    v.readAt Val (Rect.unit (s := S10000x1) ![0, 0] S10000x1.size inb_S10000x1_S10000x1_0_0).toLoadRect f = v.read Val f :=
  (View.readAt_eq_ld v f _).trans (ld_S10000x1 _)
theorem readAt_S256x64 {sg : RefSig} {κ : Kind} {sp : Space} {e : EltTy} {Val : EltTy → Type} (v : View sg κ sp S256x64 e) (f : v.ty.Contents Val) :
    v.readAt Val (Rect.unit (s := S256x64) ![0, 0] S256x64.size inb_S256x64_S256x64_0_0).toLoadRect f = v.read Val f :=
  (View.readAt_eq_ld v f _).trans (ld_S256x64 _)
theorem readAt_S256x1 {sg : RefSig} {κ : Kind} {sp : Space} {e : EltTy} {Val : EltTy → Type} (v : View sg κ sp S256x1 e) (f : v.ty.Contents Val) :
    v.readAt Val (Rect.unit (s := S256x1) ![0, 0] S256x1.size inb_S256x1_S256x1_0_0).toLoadRect f = v.read Val f :=
  (View.readAt_eq_ld v f _).trans (ld_S256x1 _)

theorem read_writes_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

set_option maxHeartbeats 1000000 in

theorem run4_mid (c : Dev nD) (E : Set ℕ) (i : grid4.Coords)
    (arg1 : Memref sig .tc .vmem S10000x64 .f32) (harg1 : arg1.IsWhole) (arg2 : Memref sig .tc .vmem S10000x1 .i32) (harg2 : arg2.IsWhole)
    (arg3 : Memref sig .tc .vmem S256x64 .f32) (harg3 : arg3.IsWhole) (arg4 : Memref sig .tc .vmem S256x64 .f32) (harg4 : arg4.IsWhole)
    (arg5 : Memref sig .tc .vmem S256x1 .f32) (harg5 : arg5.IsWhole)
    (h1 : ¬first4 i) (h2 : ¬last4 i)
    (x : Vec F S10000x64 .f32) (b : Vec F S10000x1 .i32) (o : Vec F S256x64 .f32) (s0 : Vec F S256x64 .f32) (s1 : Vec F S256x1 .f32)
    (K : PUnit → sProp 𝕄) :
    iprop(owns (c : Thread nD τ) arg1 fullShare x ∗ owns (c : Thread nD τ) arg2 fullShare b ∗ owns (c : Thread nD τ) arg3 fullShare o
        ∗ owns (c : Thread nD τ) arg4 fullShare s0 ∗ owns (c : Thread nD τ) arg5 fullShare s1
        ∗ (iprop(owns (c : Thread nD τ) arg1 fullShare x ∗ owns (c : Thread nD τ) arg2 fullShare b ∗ owns (c : Thread nD τ) arg3 fullShare o
            ∗ owns (c : Thread nD τ) arg4 fullShare (k4_pay4 b s0 x) ∗ owns (c : Thread nD τ) arg5 fullShare (k4_pay5 b s1)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec (disch := first | exact h1 | exact h2)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    rw [read_writes_whole (S := S256x64) _ _ zeros2]
    repeat (first | rw [View.readCov_cons_toLoadRect] | rw [readAt_S10000x64] | rw [readAt_S10000x1] | rw [readAt_S256x64] | rw [readAt_S256x1])
  iexists _; isplitr
  swap; · iexact H5
  ipureintro
  rw [read_writes_whole (S := S256x1) _ _ zeros2]
  repeat (first | rw [View.readCov_cons_toLoadRect] | rw [readAt_S10000x64] | rw [readAt_S10000x1] | rw [readAt_S256x64] | rw [readAt_S256x1])

set_option maxHeartbeats 1000000 in

theorem run4_first (c : Dev nD) (E : Set ℕ) (i : grid4.Coords)
    (arg1 : Memref sig .tc .vmem S10000x64 .f32) (harg1 : arg1.IsWhole) (arg2 : Memref sig .tc .vmem S10000x1 .i32) (harg2 : arg2.IsWhole)
    (arg3 : Memref sig .tc .vmem S256x64 .f32) (harg3 : arg3.IsWhole) (arg4 : Memref sig .tc .vmem S256x64 .f32) (harg4 : arg4.IsWhole)
    (arg5 : Memref sig .tc .vmem S256x1 .f32) (harg5 : arg5.IsWhole)
    (h1 : first4 i) (h2 : ¬last4 i)
    (x : Vec F S10000x64 .f32) (b : Vec F S10000x1 .i32) (o : Vec F S256x64 .f32)
    (K : PUnit → sProp 𝕄) :
    iprop(owns (c : Thread nD τ) arg1 fullShare x ∗ owns (c : Thread nD τ) arg2 fullShare b ∗ owns (c : Thread nD τ) arg3 fullShare o
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare b ∗ owns (c : Thread nD τ) arg3 fullShare o
            ∗ owns (c : Thread nD τ) arg4 fullShare (k4_pay4 b k4_pay1 x) ∗ owns (c : Thread nD τ) arg5 fullShare (k4_pay5 b k4_pay2)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec (disch := first | exact h1 | exact h2)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    unfold run4_first.sl.v10 run4_first.sl.H4_1
    rw [read_writes_whole (S := S256x64) _ _ zeros2]
    repeat (first | rw [View.readCov_cons_toLoadRect] | rw [readAt_S10000x64] | rw [readAt_S10000x1] | rw [readAt_S256x64] | rw [readAt_S256x1])
  iexists _; isplitr
  swap; · iexact H5
  ipureintro
  unfold run4_first.sl.v19 run4_first.sl.H5_1
  rw [read_writes_whole (S := S256x1) _ _ zeros2]
  repeat (first | rw [View.readCov_cons_toLoadRect] | rw [readAt_S10000x64] | rw [readAt_S10000x1] | rw [readAt_S256x64] | rw [readAt_S256x1])

set_option maxHeartbeats 1000000 in

theorem run4_last (c : Dev nD) (E : Set ℕ) (i : grid4.Coords)
    (arg1 : Memref sig .tc .vmem S10000x64 .f32) (harg1 : arg1.IsWhole) (arg2 : Memref sig .tc .vmem S10000x1 .i32) (harg2 : arg2.IsWhole)
    (arg3 : Memref sig .tc .vmem S256x64 .f32) (harg3 : arg3.IsWhole) (arg4 : Memref sig .tc .vmem S256x64 .f32) (harg4 : arg4.IsWhole)
    (arg5 : Memref sig .tc .vmem S256x1 .f32) (harg5 : arg5.IsWhole)
    (h1 : ¬first4 i) (h2 : last4 i)
    (x : Vec F S10000x64 .f32) (b : Vec F S10000x1 .i32) (s0 : Vec F S256x64 .f32) (s1 : Vec F S256x1 .f32)
    (K : PUnit → sProp 𝕄) :
    iprop(owns (c : Thread nD τ) arg1 fullShare x ∗ owns (c : Thread nD τ) arg2 fullShare b ∗ (∃ d, owns (c : Thread nD τ) arg3 fullShare d)
        ∗ owns (c : Thread nD τ) arg4 fullShare s0 ∗ owns (c : Thread nD τ) arg5 fullShare s1
        ∗ (iprop(owns (c : Thread nD τ) arg1 fullShare x ∗ owns (c : Thread nD τ) arg2 fullShare b
            ∗ owns (c : Thread nD τ) arg3 fullShare (k4_pay6 (k4_pay5 b s1) (k4_pay4 b s0 x))
            ∗ owns (c : Thread nD τ) arg4 fullShare (k4_pay4 b s0 x) ∗ owns (c : Thread nD τ) arg5 fullShare (k4_pay5 b s1)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f1, %hf1, H1⟩, ⟨%f2, %hf2, H2⟩, ⟨%d3, %f3, -, H3⟩, ⟨%f4, %hf4, H4⟩, ⟨%f5, %hf5, H5⟩, Hk⟩
  subst hf1 hf2 hf4 hf5
  sl_exec (disch := first | exact h1 | exact h2)
  sl_step
  iapply Hk
  isplitl [H1]
  · iexists _; isplitr; · ipureintro; rfl
    iexact H1
  isplitl [H2]
  · iexists _; isplitr; · ipureintro; rfl
    iexact H2
  isplitl [H3]
  · iexists _; isplitr
    swap; · iexact H3
    ipureintro
    unfold run4_last.sl.v30 run4_last.sl.v33 run4_last.sl.H4_1 run4_last.sl.H5_1
    rw [read_writes_whole (S := S256x64) _ _ zeros2]
    repeat (first | rw [View.readCov_cons_toLoadRect] | rw [readAt_S10000x64] | rw [readAt_S10000x1] | rw [readAt_S256x64] | rw [readAt_S256x1])
  isplitl [H4]
  · iexists _; isplitr
    swap; · iexact H4
    ipureintro
    unfold run4_last.sl.H4_1
    rw [read_writes_whole (S := S256x64) _ _ zeros2]
    repeat (first | rw [View.readCov_cons_toLoadRect] | rw [readAt_S10000x64] | rw [readAt_S10000x1] | rw [readAt_S256x64] | rw [readAt_S256x1])
  iexists _; isplitr
  swap; · iexact H5
  ipureintro
  unfold run4_last.sl.H5_1
  rw [read_writes_whole (S := S256x1) _ _ zeros2]
  repeat (first | rw [View.readCov_cons_toLoadRect] | rw [readAt_S10000x64] | rw [readAt_S10000x1] | rw [readAt_S256x64] | rw [readAt_S256x1])

theorem hfirst4 : ∀ t : Fin cfg4.N, first4 (grid4.coords t) ↔ t.val % 10 = 0 :=
  (by decide +kernel : ∀ t : Fin grid4.N, first4 (grid4.coords t) ↔ t.val % 10 = 0)

theorem hlast4 : ∀ t : Fin cfg4.N, last4 (grid4.coords t) ↔ t.val % 10 = 9 :=
  (by decide +kernel : ∀ t : Fin grid4.N, last4 (grid4.coords t) ↔ t.val % 10 = 9)

theorem liveAt4_0 : ∀ t : Fin cfg4.N, cfg4.idle 0 (grid4.coords t) = false := by decide +kernel
theorem liveAt4_1 : ∀ t : Fin cfg4.N, cfg4.idle 1 (grid4.coords t) = false := by decide +kernel

theorem idleAt4_2 : ∀ t : Fin cfg4.N, ¬last4 (grid4.coords t) → cfg4.idle 2 (grid4.coords t) = true := by decide +kernel
theorem noFlush4_2 : ∀ t : Fin cfg4.N, ¬last4 (grid4.coords t) → (cfg4.win 2).flush t = false := by decide +kernel

theorem liveAt4_2 : ∀ t : Fin cfg4.N, last4 (grid4.coords t) → cfg4.idle 2 (grid4.coords t) = false := by decide +kernel

theorem scrAt_congr (c : Dev nD) (n n' : ℕ) (h : n = n') (hn : n < cfg4.N) (hn' : n' < cfg4.N) :
    scrAt V c n hn = scrAt V c n' hn' := by subst h; rfl

theorem scrAt_first (c : Dev nD) (t : Fin cfg4.N) (h : t.val = 0) :
    scrAt V c t.val t.isLt = (k4_pay4 (iblk4 V c 1 t) k4_pay1 (iblk4 V c 0 t), k4_pay5 (iblk4 V c 1 t) k4_pay2) := by
  obtain ⟨n, hn⟩ := t
  cases n with
  | zero => rfl
  | succ n => exact absurd h (Nat.succ_ne_zero n)

theorem scrAt_later (c : Dev nD) (t : Fin cfg4.N) (h : t.val ≠ 0) :
    scrAt V c t.val t.isLt = (k4_pay4 (iblk4 V c 1 t) (scrAt V c (t.val - 1) (Nat.lt_of_le_of_lt (Nat.sub_le _ _) t.isLt)).1 (iblk4 V c 0 t),
      k4_pay5 (iblk4 V c 1 t) (scrAt V c (t.val - 1) (Nat.lt_of_le_of_lt (Nat.sub_le _ _) t.isLt)).2) := by
  obtain ⟨n, hn⟩ := t
  cases n with
  | zero => exact absurd rfl h
  | succ n => rfl

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) (Memref.whole cc4_scratch0) fullShare (scrAt V c n hn).1
        ∗ owns (c : Thread nD τ) (Memref.whole cc4_scratch1) fullShare (scrAt V c n hn).2)
        ∗ Pipeline.scopedRestBut (Ix := Unit) (Name := ℕ) (U := UR sig nD τ) (Lvl := ℕ) (Val := Elt F) spec4 c [cc4_scratch0, cc4_scratch1])
      ∗ (∃ r, prngReg c r)) := rfl

theorem PhiS4_pos (c : Dev nD) (n : ℕ) (h : n ≤ cfg4.N) (hz : n ≠ 0) :
    PhiS4 V c n h = iprop(iprop(iprop(owns (c : Thread nD τ) (Memref.whole cc4_scratch0) fullShare (scrAt V c (n - 1) (by omega)).1
        ∗ owns (c : Thread nD τ) (Memref.whole cc4_scratch1) fullShare (scrAt V c (n - 1) (by omega)).2)
        ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

theorem PhiA4_eq (c : Dev nD) :
    (Pipeline.ΦA spec4 c : sProp 𝕄)
      = iprop(iprop(iprop((∃ d, owns (c : Thread nD τ) (Memref.whole cc4_scratch0) fullShare d)
          ∗ (∃ d, owns (c : Thread nD τ) (Memref.whole cc4_scratch1) fullShare d))
          ∗ Pipeline.scopedRestBut (Ix := Unit) (Name := ℕ) (U := UR sig nD τ) (Lvl := ℕ) (Val := Elt F) spec4 c [cc4_scratch0, cc4_scratch1])
        ∗ (∃ r, prngReg c r)) := by
  unfold Pipeline.ΦA; rw [scopedRest4_split]; simp only [owns_whole]; try rfl

theorem PhiS4_castSucc (c : Dev nD) (t : Fin cfg4.N) :
    (dat4 V c).Φ t.castSucc = PhiS4 V c t.val (Nat.le_of_lt t.isLt) := by
  dsimp only [dat4]; simp only [Fin.coe_castSucc]

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

abbrev ms4_0 (t : Fin cfg4.N) : Memref sig .tc .vmem S10000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10000x1 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S256x64 .f32 := win4_2.stage (cfg4.slots t 2)
abbrev hs4_2 (t : Fin cfg4.N) : (ms4_2 t).IsWhole := hstage4_2 ((cfg4.slots t 2).cast nbuf4_2)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  have hN : t.val < 10 := lt_of_lt_of_eq t.isLt (show cfg4.N = 10 from N_4)
  by_cases h9 : t.val % 10 = 9
  · have hl : last4 (grid4.coords t) := (hlast4 t).mpr h9
    have hf : ¬first4 (grid4.coords t) := fun h => by have := (hfirst4 t).mp h; omega
    have hz : t.val ≠ 0 := by omega
    rw [show (dat4 V c).leavesExact 2 t = owns (c : Thread nD τ) (ms4_2 t) fullShare ((dat4 V c).after 2 t) from by
      unfold Dat.leavesExact; rw [liveAt4_2 t hl], after4_2, pooled4]
    rw [scrAt_congr V c 9 t.val (by omega) lt_N4 t.isLt, scrAt_later V c t hz]
    rw [PhiS4_castSucc V c t, PhiS4_pos V c _ _ hz]
    iintro ⟨⟨⟨⟨HS0, HS1⟩, HR⟩, Hg⟩, Ho, ⟨%d0, H0⟩, ⟨%d1, H1⟩, ⟨%d2, H2⟩⟩
    iapply (run4_last c Set.univ (grid4.coords t) _ (hs4_0 t) _ (hs4_1 t) _ (hs4_2 t) _ (Memref.isWhole_whole _) _ (Memref.isWhole_whole _)
      hf hl (iblk4 V c 0 t) (iblk4 V c 1 t) _ _ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexact H2
  · have hl : ¬last4 (grid4.coords t) := fun h => h9 ((hlast4 t).mp h)
    rw [Dat.leavesExact_idle (dat4 V c) 2 t (idleAt4_2 t hl) (noFlush4_2 t hl)]
    by_cases hz : t.val = 0
    · have hf : first4 (grid4.coords t) := (hfirst4 t).mpr (by omega)
      rw [scrAt_first V c t hz]
      rw [PhiS4_castSucc V c t, PhiS4_zero V c _ _ hz, PhiA4_eq]
      iintro ⟨⟨⟨⟨HS0, HS1⟩, HR⟩, Hg⟩, Ho, ⟨%d0, H0⟩, ⟨%d1, H1⟩, ⟨%d2, H2⟩⟩
      iapply (run4_first c Set.univ (grid4.coords t) _ (hs4_0 t) _ (hs4_1 t) _ (hs4_2 t) _ (Memref.isWhole_whole _) _ (Memref.isWhole_whole _)
        hf hl (iblk4 V c 0 t) (iblk4 V c 1 t) _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      iexists _; iexact H2
    · have hf : ¬first4 (grid4.coords t) := fun h => by have := (hfirst4 t).mp h; omega
      rw [scrAt_later V c t hz]
      rw [PhiS4_castSucc V c t, PhiS4_pos V c _ _ hz]
      iintro ⟨⟨⟨⟨HS0, HS1⟩, HR⟩, Hg⟩, Ho, ⟨%d0, H0⟩, ⟨%d1, H1⟩, ⟨%d2, H2⟩⟩
      iapply (run4_mid c Set.univ (grid4.coords t) _ (hs4_0 t) _ (hs4_1 t) _ (hs4_2 t) _ (Memref.isWhole_whole _) _ (Memref.isWhole_whole _)
        hf hl (iblk4 V c 0 t) (iblk4 V c 1 t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.KernelIdeal.Hand

end
-- ==== Proof.KI.Run.lean ====
import proofs.«417436_j16896401342873_2_alg».proof.Proof.KI.R0
import proofs.«417436_j16896401342873_2_alg».proof.Proof.KI.R1
import proofs.«417436_j16896401342873_2_alg».proof.Proof.KI.R2
import proofs.«417436_j16896401342873_2_alg».proof.Proof.KI.R3
import proofs.«417436_j16896401342873_2_alg».proof.Proof.KI.R4
import proofs.«417436_j16896401342873_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (V3 m ρ) c).arrAt w cfg0.N
abbrev V4 : (c : Dev nD) → (b : Ref sig .tc) → Buf (Elt F) ((c : Thread nD τ).loc b) := fun c b => W4 m ρ c b
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w

theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb

abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (V5 m ρ) c).arrAt w cfg1.N
abbrev V6 : (c : Dev nD) → (b : Ref sig .tc) → Buf (Elt F) ((c : Thread nD τ).loc b) := fun c b => W6 m ρ c b
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w

theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb

def W7 (c : Dev nD) : Valuation τ sig (Elt F) :=
  Pipeline.withArrays spec2 c (W6 m ρ c) fun w => (dat2 (V6 m ρ) c).arrAt w cfg2.N
abbrev V7 : (c : Dev nD) → (b : Ref sig .tc) → Buf (Elt F) ((c : Thread nD τ).loc b) := fun c b => W7 m ρ c b
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w

theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb

abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b

def W9 (c : Dev nD) : Valuation τ sig (Elt F) :=
  Pipeline.withArrays spec3 c (W8 m ρ c) fun w => (dat3 (V8 m ρ) c).arrAt w cfg3.N
abbrev V9 : (c : Dev nD) → (b : Ref sig .tc) → Buf (Elt F) ((c : Thread nD τ).loc b) := fun c b => W9 m ρ c b
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w

theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb

abbrev W10 : Dev nD → Valuation τ sig (Elt F) := fun c => StableHlo.after hostOps4 (W9 m ρ c)
abbrev V10 : (c : Dev nD) → (b : Ref sig .tc) → Buf (Elt F) ((c : Thread nD τ).loc b) := fun c b => W10 m ρ c b

def W11 (c : Dev nD) : Valuation τ sig (Elt F) :=
  Pipeline.withArrays spec4 c (W10 m ρ c) fun w => (dat4 (V10 m ρ) c).arrAt w cfg4.N
abbrev V11 : (c : Dev nD) → (b : Ref sig .tc) → Buf (Elt F) ((c : Thread nD τ).loc b) := fun c b => W11 m ρ c b
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w

theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb

theorem W4_out (c : Dev nD) : W4 m ρ c (Proc.devRef .tc main_v16) = (dat0 (V3 m ρ) c).arrAt 3 cfg0.N := W4_arr m ρ c 3
theorem W6_out (c : Dev nD) : W6 m ρ c (Proc.devRef .tc main_v28) = (dat1 (V5 m ρ) c).arrAt 3 cfg1.N := W6_arr m ρ c 3
theorem W7_out (c : Dev nD) : W7 m ρ c (Proc.devRef .tc main_v29) = (dat2 (V6 m ρ) c).arrAt 3 cfg2.N := W7_arr m ρ c 3
theorem W9_out (c : Dev nD) : W9 m ρ c (Proc.devRef .tc main_v41) = (dat3 (V8 m ρ) c).arrAt 3 cfg3.N := W9_arr m ρ c 3
theorem W11_out (c : Dev nD) : W11 m ρ c (Proc.devRef .tc main_v43) = (dat4 (V10 m ρ) c).arrAt 2 cfg4.N := W11_arr m ρ c 2

/-- The kernel step of `Wb_succ`: `r` is an input window's array, which keeps its entry contents, or none of the kernel's arrays. -/
theorem W4_keep (c : Dev nD) (r : Ref sig .tc) (h : ∀ w, Pipeline.arrRef spec0 w = r → (cfg0.win w).isOut = false) :
    W4 m ρ c (Proc.devRef .tc r) = W3 m ρ c (Proc.devRef .tc r) := by
  by_cases hw : ∃ w, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
theorem W6_keep (c : Dev nD) (r : Ref sig .tc) (h : ∀ w, Pipeline.arrRef spec1 w = r → (cfg1.win w).isOut = false) :
    W6 m ρ c (Proc.devRef .tc r) = W5 m ρ c (Proc.devRef .tc r) := by
  by_cases hw : ∃ w, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
theorem W7_keep (c : Dev nD) (r : Ref sig .tc) (h : ∀ w, Pipeline.arrRef spec2 w = r → (cfg2.win w).isOut = false) :
    W7 m ρ c (Proc.devRef .tc r) = W6 m ρ c (Proc.devRef .tc r) := by
  by_cases hw : ∃ w, Pipeline.arrRef spec2 w = r
  · obtain ⟨w, rfl⟩ := hw
    exact (W7_arr m ρ c w).trans (((dat2 (V6 m ρ) c).arrAt_in w (h w rfl) _).trans (A_eq2 (V6 m ρ) c w))
  · exact W7_of_ne m ρ c r fun w e => hw ⟨w, e⟩
theorem W9_keep (c : Dev nD) (r : Ref sig .tc) (h : ∀ w, Pipeline.arrRef spec3 w = r → (cfg3.win w).isOut = false) :
    W9 m ρ c (Proc.devRef .tc r) = W8 m ρ c (Proc.devRef .tc r) := by
  by_cases hw : ∃ w, Pipeline.arrRef spec3 w = r
  · obtain ⟨w, rfl⟩ := hw
    exact (W9_arr m ρ c w).trans (((dat3 (V8 m ρ) c).arrAt_in w (h w rfl) _).trans (A_eq3 (V8 m ρ) c w))
  · exact W9_of_ne m ρ c r fun w e => hw ⟨w, e⟩
theorem W11_keep (c : Dev nD) (r : Ref sig .tc) (h : ∀ w, Pipeline.arrRef spec4 w = r → (cfg4.win w).isOut = false) :
    W11 m ρ c (Proc.devRef .tc r) = W10 m ρ c (Proc.devRef .tc r) := by
  by_cases hw : ∃ w, Pipeline.arrRef spec4 w = r
  · obtain ⟨w, rfl⟩ := hw
    exact (W11_arr m ρ c w).trans (((dat4 (V10 m ρ) c).arrAt_in w (h w rfl) _).trans (A_eq4 (V10 m ρ) c w))
  · exact W11_of_ne m ρ c r fun w e => hw ⟨w, e⟩

/-- The buffer contents at boundary `k` of the program's eleven items. -/
def Wb : ℕ → Dev nD → Valuation τ sig (Elt F)
  | 0 => W0 m ρ | 1 => W1 m ρ | 2 => W2 m ρ | 3 => W3 m ρ | 4 => W4 m ρ | 5 => W5 m ρ | 6 => W6 m ρ
  | 7 => W7 m ρ | 8 => W8 m ρ | 9 => W9 m ρ | 10 => W10 m ρ | _ => W11 m ρ

/-- Whether item `k` leaves `r` unwritten; it is decidable, so each use below is one `decide`. -/
def keeps : ℕ → Ref sig .tc → Bool
  | 0, r => decide (r ∉ hostOps0_W)
  | 1, r => decide (r ∉ hostOps0_1_W)
  | 2, r => decide (r ∉ hostOps0_2_W)
  | 3, r => decide (∀ w, Pipeline.arrRef spec0 w = r → (cfg0.win w).isOut = false)
  | 4, r => decide (r ∉ hostOps1_W)
  | 5, r => decide (∀ w, Pipeline.arrRef spec1 w = r → (cfg1.win w).isOut = false)
  | 6, r => decide (∀ w, Pipeline.arrRef spec2 w = r → (cfg2.win w).isOut = false)
  | 7, r => decide (r ∉ hostOps3_W)
  | 8, r => decide (∀ w, Pipeline.arrRef spec3 w = r → (cfg3.win w).isOut = false)
  | 9, r => decide (r ∉ hostOps4_W)
  | 10, r => decide (∀ w, Pipeline.arrRef spec4 w = r → (cfg4.win w).isOut = false)
  | _, _ => false

theorem Wb_succ (c : Dev nD) (r : Ref sig .tc) (k : ℕ) (h : keeps k r = true) :
    Wb m ρ (k + 1) c (Proc.devRef .tc r) = Wb m ρ k c (Proc.devRef .tc r) :=
  match k, h with
  | 0, h => StableHlo.after_of_writes_sub hostOps0 _ hostOps0_writes (of_decide_eq_true h)
  | 1, h => StableHlo.after_of_writes_sub hostOps0_1 _ hostOps0_1_writes (of_decide_eq_true h)
  | 2, h => StableHlo.after_of_writes_sub hostOps0_2 _ hostOps0_2_writes (of_decide_eq_true h)
  | 3, h => W4_keep m ρ c r (of_decide_eq_true h)
  | 4, h => StableHlo.after_of_writes_sub hostOps1 _ hostOps1_writes (of_decide_eq_true h)
  | 5, h => W6_keep m ρ c r (of_decide_eq_true h)
  | 6, h => W7_keep m ρ c r (of_decide_eq_true h)
  | 7, h => StableHlo.after_of_writes_sub hostOps3 _ hostOps3_writes (of_decide_eq_true h)
  | 8, h => W9_keep m ρ c r (of_decide_eq_true h)
  | 9, h => StableHlo.after_of_writes_sub hostOps4 _ hostOps4_writes (of_decide_eq_true h)
  | 10, h => W11_keep m ρ c r (of_decide_eq_true h)
  | _ + 11, h => by simp [keeps] at h

/-- How the frames and the value leg read an argument or an early host result at a later boundary: by induction over the items between. -/
theorem Wb_kept (c : Dev nD) (r : Ref sig .tc) (i j : ℕ) (h : i ≤ j ∧ ∀ k < j, i ≤ k → keeps k r = true) :
    Wb m ρ j c (Proc.devRef .tc r) = Wb m ρ i c (Proc.devRef .tc r) := by
  obtain ⟨hij, hk⟩ := h
  induction j, hij using Nat.le_induction with
  | base => rfl
  | succ j hij ih =>
    exact (Wb_succ m ρ c r j (hk j j.lt_succ_self hij)).trans (ih fun k hk' => hk k (Nat.lt_succ_of_lt hk'))

def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V10 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev at_ (W : Dev nD → Valuation τ sig (Elt F)) (c : Dev nD) : sProp 𝕄 :=
  iprop(StableHlo.held (c : Thread nD τ) (Pipeline.ucRefs τ sig) (W c) ∗ R c)

abbrev Tₙ (c : Dev nD) : sProp 𝕄 := iprop(StableHlo.held (c : Thread nD τ) (Pipeline.ucRefs τ sig) (W11 m ρ c) ∗ ∃ r, prngReg c r)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem noTables (p : Fin 5) (c : Dev nD) :
    (BI.emp : sProp 𝕄) ⊢ Pipeline.prefHeld (pcfgs (F := F) p).pre c (fun _ => fullShare) (adm (F := F) p).1 := by
  unfold Pipeline.prefHeld; rw [show (Finset.univ : Finset (Fin 0)) = ∅ from rfl, BI.bigSep_empty]

theorem owes_enter {cfg : Cfg sig Λ₀} {c : Dev nD} (dat : Dat τ (Elt F) Unit ℕ (UR sig nD τ) ℕ cfg c)
    (h0 : dat.owed 0 = 0) (hrec : dat.recorded 0 = Set.univ) :
    (iprop(∃ W, owes (c : Thread nD τ) (0 : CellTallies nD τ sig Unit) W) : sProp 𝕄) ⊢ dat.owesAt () 0 := by
  unfold Pipeline.Dat.owesAt Pipeline.owesWithin Pipeline.Dat.bound
  rw [h0, hrec]
  iintro ⟨%W, HO⟩; iexists W; isplitr; · ipureintro; exact fun _ _ => Or.inl trivial
  iexact HO

theorem owes_leave {cfg : Cfg sig Λ₀} {c : Dev nD} (dat : Dat τ (Elt F) Unit ℕ (UR sig nD τ) ℕ cfg c)
    (hN : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [hN]
  iintro ⟨%W, -, HO⟩; iexists W; iexact HO

theorem ΦA_in {gr W : Nat} (win : Fin W → Pipeline.WinSpec sig gr) (p : Fin 5) (c : Dev nD) :
    iprop((∃ r, prngReg c r) ∗ Pipeline.prefHeld (pcfgs (F := F) p).pre c (fun _ => fullShare) (adm (F := F) p).1
      ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp

theorem ΦA_out {gr W : Nat} (win : Fin W → Pipeline.WinSpec sig gr) (c : Dev nD) :
    (Pipeline.ΦA win c : sProp 𝕄)
      ⊢ iprop((∃ r, prngReg c r) ∗ Pipeline.ownSems0 (fun k : PEmpty => k.elim) c
        ∗ Pipeline.scopedRest (Ix := Unit) (Name := ℕ) (U := UR sig nD τ) (Lvl := ℕ) (Val := Elt F) win c) := by
  rw [Pipeline.ownSems0_none]; unfold Pipeline.ΦA
  iintro ⟨Hr, Hp⟩
  isplitl [Hp]; · iexact Hp
  isplitr; · iempintro
  iexact Hr

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := at_ (W3 m ρ) c
  post c := at_ (W4 m ρ) c
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (noTables (F := F) 0 c); iempintro
    isplitl [HO]; · iapply (owes_enter (pdats m ρ 0 c) rfl rfl); iexact HO
    isplitl [Hp]; · iexact Hp
    iexact Hrest
  hin c := ΦA_in spec0 0 c
  hout c := ΦA_out spec0 c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N)
      (fun w => (W4_arr m ρ c w).symm)
      (fun b hb => W4_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_leave (pdats m ρ 0 c) rfl); iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := at_ (W5 m ρ) c
  post c := at_ (W6 m ρ) c
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (noTables (F := F) 1 c); iempintro
    isplitl [HO]; · iapply (owes_enter (pdats m ρ 1 c) rfl rfl); iexact HO
    isplitl [Hp]; · iexact Hp
    iexact Hrest
  hin c := ΦA_in spec1 1 c
  hout c := ΦA_out spec1 c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N)
      (fun w => (W6_arr m ρ c w).symm)
      (fun b hb => W6_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_leave (pdats m ρ 1 c) rfl); iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := at_ (W6 m ρ) c
  post c := at_ (W7 m ρ) c
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (noTables (F := F) 2 c); iempintro
    isplitl [HO]; · iapply (owes_enter (pdats m ρ 2 c) rfl rfl); iexact HO
    isplitl [Hp]; · iexact Hp
    iexact Hrest
  hin c := ΦA_in spec2 2 c
  hout c := ΦA_out spec2 c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N)
      (fun w => (W7_arr m ρ c w).symm)
      (fun b hb => W7_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_leave (pdats m ρ 2 c) rfl); iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := at_ (W8 m ρ) c
  post c := at_ (W9 m ρ) c
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (noTables (F := F) 3 c); iempintro
    isplitl [HO]; · iapply (owes_enter (pdats m ρ 3 c) rfl rfl); iexact HO
    isplitl [Hp]; · iexact Hp
    iexact Hrest
  hin c := ΦA_in spec3 3 c
  hout c := ΦA_out spec3 c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N)
      (fun w => (W9_arr m ρ c w).symm)
      (fun b hb => W9_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_leave (pdats m ρ 3 c) rfl); iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m ρ) c).loose
  hwaits := Pipeline.hwaits_of_owed_zero _ _ _ _ L lv 4 fun _ _ => rfl
  pre c := at_ (W10 m ρ) c
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (noTables (F := F) 4 c); iempintro
    isplitl [HO]; · iapply (owes_enter (pdats m ρ 4 c) rfl rfl); iexact HO
    isplitl [Hp]; · iexact Hp
    iexact Hrest
  hin c := (ΦA_in spec4 4 c).trans (hin4 (V10 m ρ) c)
  hout c := (hout4 (V10 m ρ) c).trans (ΦA_out spec4 c)
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N)
      (fun w => (W11_arr m ρ c w).symm)
      (fun b hb => W11_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owes_leave (pdats m ρ 4 c) rfl); iexact HO

abbrev segments : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .host (hseg hostOps4 hostOps4_sub hostOps4_fresh (W9 m ρ)),
    .region (reg4 m ρ) ]

theorem main_run (c : Dev nD) : main (F := F) c = Pipeline.Seg.run (segments m ρ) := (main_chain c).trans (by chain_rfl)

set_option backward.isDefEq.respectTransparency.types false in

theorem run_main : θ_run defs (onTc (τ := τ) (main (F := F))) ⟨m, fun _ => 0, ρ⟩
    (fun r => ∀ c : Dev nD, ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segments m ρ)
    (fun c Q => by rw [main_run m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by

      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := at_ (W0 m ρ)) (Tₙ := Tₙ m ρ)
    (hch := ⟨fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by

      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by

      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h => h)

/-- The run, read at the result buffer and at the seven arguments, which no item writes. -/
theorem run_args : θ_run defs (onTc (τ := τ) (main (F := F))) ⟨m, fun _ => 0, ρ⟩ (fun r => ∀ c : Dev nD,
    r.2.mem ((c.tc : Thread nD τ).loc main_v43) = W11 m ρ c (Proc.devRef .tc main_v43)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun r h c =>
    ⟨h c _ (mem_uc main_v43 (by decide)),
      (h c _ (mem_uc main_arg0 (by decide))).trans (Wb_kept m ρ c main_arg0 0 11 (by decide)),
      (h c _ (mem_uc main_arg1 (by decide))).trans (Wb_kept m ρ c main_arg1 0 11 (by decide)),
      (h c _ (mem_uc main_arg2 (by decide))).trans (Wb_kept m ρ c main_arg2 0 11 (by decide)),
      (h c _ (mem_uc main_arg3 (by decide))).trans (Wb_kept m ρ c main_arg3 0 11 (by decide)),
      (h c _ (mem_uc main_arg4 (by decide))).trans (Wb_kept m ρ c main_arg4 0 11 (by decide)),
      (h c _ (mem_uc main_arg5 (by decide))).trans (Wb_kept m ρ c main_arg5 0 11 (by decide)),
      (h c _ (mem_uc main_arg6 (by decide))).trans (Wb_kept m ρ c main_arg6 0 11 (by decide))⟩)
    (run_main (F := F) m ρ)

end Cert.KernelIdeal.Hand

end
-- ==== Proof.Frames.lean ====
import proofs.«417436_j16896401342873_2_alg».proof.Defs
import proofs.«417436_j16896401342873_2_alg».proof.Proof.Gen.Kernel
import proofs.«417436_j16896401342873_2_alg».proof.Proof.Gen.KernelIdeal
import proofs.«417436_j16896401342873_2_alg».proof.Proof.Gen.Pre_finite_inputs
import proofs.«417436_j16896401342873_2_alg».proof.Proof.KI.Run

noncomputable section

open Idealize.ShloMosaic Idealize.SL.Sem

namespace Cert.Proof.FrameClaims

variable {F : FTy → Type} [FloatOps F]

set_option maxHeartbeats 1000000 in
/-- The idealization rewrote nothing: label by label the two printed programs have the same kernel bodies. -/
theorem defs0_eq : Cert.Kernel.defs₀ (F := F) = Cert.KernelIdeal.defs₀ (F := F) := by
  unfold Cert.Kernel.defs₀ Cert.KernelIdeal.defs₀
  congr 1
  funext ℓ x
  match ℓ, x with
  | 0, (t, s) => rfl
  | 1, (t, s) => rfl
  | 2, (t, s) => rfl
  | 3, (t, s) => rfl
  | 4, (t, s) => rfl

set_option maxHeartbeats 1000000 in
theorem defs_eq : Cert.Kernel.defs (F := F) = Cert.KernelIdeal.defs (F := F) :=
  congrArg (Pipeline.defs Cert.Kernel.pcfgs) defs0_eq

set_option maxHeartbeats 1000000 in
theorem main_eq : Cert.Kernel.main (F := F) = Cert.KernelIdeal.main (F := F) := by
  funext c
  rfl

theorem frame_ki : Cert.frame_KernelIdeal := fun m ρ _ =>
  (θ_run Cert.KernelIdeal.defs _ _).mono (fun _ h c => (h c).2) (Cert.KernelIdeal.Hand.run_args (F := Ideal) m ρ)

set_option maxHeartbeats 1000000 in
/-- The two printed programs are one text, and the run above holds at every instance of the float operations. -/
theorem frame_k : Cert.frame_Kernel := fun m ρ _ => by
  rw [defs_eq, main_eq]
  exact (θ_run Cert.KernelIdeal.defs _ _).mono (fun _ h c => (h c).2) (Cert.KernelIdeal.Hand.run_args (F := Bits) m ρ)

end Cert.Proof.FrameClaims

end
-- ==== Proof.RefFrame.lean ====
import proofs.«417436_j16896401342873_2_alg».proof.Defs
import proofs.«417436_j16896401342873_2_alg».proof.Proof.Gen.ReferenceIdeal
import proofs.«417436_j16896401342873_2_alg».proof.Proof.Gen.Pre_finite_inputs
import proofs.«417436_j16896401342873_2_alg».proof.Proof.RefRun
import proofs.«417436_j16896401342873_2_alg».proof.Proof.RefRead

noncomputable section

open Idealize.ShloMosaic Idealize.SL.Sem

namespace Cert.Proof.RefClaims

theorem frame_ri : Cert.frame_ReferenceIdeal := fun m ρ _ =>
  (θ_run Cert.ReferenceIdeal.defs _ _).mono (fun _ h c => (h c).2) (Cert.ReferenceIdeal.ValueP.run (F := Ideal) m ρ)

end Cert.Proof.RefClaims

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic

abbrev zeroF : EReal := Ideal.ofBits .f32 0x00000000#32
abbrev oneF : EReal := Ideal.ofBits .f32 0x3F800000#32

def wrapIdx (w : BitVec 32) : BitVec 32 :=
  Scalar.select (IntOp.cmpi .slt w 0#32) (IntOp.addi w 100000#32) w

def gRow (w : BitVec 32) : Fin 100000 := ⟨min (wrapIdx w).toInt.toNat (100000 - 1), by omega⟩

def into {E N : Nat} (dst : Fin E → BitVec 32) (n : Fin N) : Finset (Fin E) :=
  Finset.univ.filter fun e => (dst e).toInt = (n.val : ℤ)

section Layer

variable (row col : Fin 740000 → BitVec 32)

def deg (n : Fin 100000) : EReal := zeroF + ∑ _e ∈ into col n, oneF

def dinv (n : Fin 100000) : EReal :=
  Scalar.select (FloatOps.cmpf (F := Ideal) (φ := .f32) .ogt (deg col n) zeroF) (Ideal.rsqrt (deg col n)) zeroF

def xw {K C : Nat} (x : Fin 100000 → Fin K → EReal) (W : Fin K → Fin C → EReal) (n : Fin 100000) (q : Fin C) : EReal :=
  ∑ k : Fin K, x n k * W k q

def layerK {K C : Nat} (x : Fin 100000 → Fin K → EReal) (W : Fin K → Fin C → EReal) (b : Fin C → EReal)
    (n : Fin 100000) (q : Fin C) : EReal :=
  (zeroF + ∑ e ∈ into col n, xw x W (gRow (row e)) q * dinv col (gRow (row e))) * dinv col n + b q

def layerR {K C : Nat} (x : Fin 100000 → Fin K → EReal) (W : Fin K → Fin C → EReal) (b : Fin C → EReal)
    (n : Fin 100000) (q : Fin C) : EReal :=
  (zeroF + ∑ e ∈ into col n, (dinv col (gRow (row e)) * dinv col (gRow (col e))) * xw x W (gRow (row e)) q) + b q

end Layer

def relu {C : Nat} (h : Fin 100000 → Fin C → EReal) (n : Fin 100000) (q : Fin C) : EReal := max (h n q) zeroF

def hit (w : BitVec 32) (g : Fin 256) : EReal := if w = BitVec.ofNat 32 g.val then 1 else 0

def poolK (batch : Fin 100000 → BitVec 32) (h : Fin 100000 → Fin 64 → EReal) (g : Fin 256) (f : Fin 64) : EReal :=
  Ideal.div (∑ n : Fin 100000, hit (batch n) g * h n f) (max (∑ n : Fin 100000, hit (batch n) g) oneF)

def poolR (batch : Fin 100000 → BitVec 32) (h : Fin 100000 → Fin 64 → EReal) (g : Fin 256) (f : Fin 64) : EReal :=
  Ideal.div (zeroF + ∑ n ∈ into batch g, h n f) (max oneF (zeroF + ∑ _n ∈ into batch g, oneF))

def netK (row col : Fin 740000 → BitVec 32) (batch : Fin 100000 → BitVec 32)
    (x : Fin 100000 → Fin 128 → EReal) (W1 : Fin 128 → Fin 128 → EReal) (b1 : Fin 128 → EReal)
    (W2 : Fin 128 → Fin 64 → EReal) (b2 : Fin 64 → EReal) (g : Fin 256) (f : Fin 64) : EReal :=
  poolK batch (layerK row col (relu (layerK row col x W1 b1)) W2 b2) g f

def netR (row col : Fin 740000 → BitVec 32) (batch : Fin 100000 → BitVec 32)
    (x : Fin 100000 → Fin 128 → EReal) (W1 : Fin 128 → Fin 128 → EReal) (b1 : Fin 128 → EReal)
    (W2 : Fin 128 → Fin 64 → EReal) (b2 : Fin 64 → EReal) (g : Fin 256) (f : Fin 64) : EReal :=
  poolR batch (layerR row col (relu (layerR row col x W1 b1)) W2 b2) g f

end Cert.Spec

end
-- ==== Proof.LibRowOps.lean ====
import Idealize.ShloMosaic.PureOps.Ideal
import Idealize.ShloMosaic.Lib.ValueIdx

noncomputable section

namespace Idealize.ShloMosaic.RowOps

open Idealize.ShloMosaic Idealize.ShloMosaic.ValueIdx

abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine Finset.sum_nbij' (fun j => (j 0 : Fin E)) (fun e => ix2 e c) ?_ ?_ ?_ ?_ ?_
  · intro j hj
    obtain ⟨p, q, rfl⟩ : ∃ (p : Fin E) (q : Fin C), j = ix2 p q := ⟨j 0, j 1, eq_ix2 j⟩
    rw [Finset.mem_filter] at hj
    exact Finset.mem_filter.mpr ⟨Finset.mem_univ _, ((rowScatter_resultIdx?_eq_some_iff wf idx p q n c).mp hj.2).2⟩
  · intro e he
    rw [Finset.mem_filter] at he ⊢
    exact ⟨Finset.mem_univ _, (rowScatter_resultIdx?_eq_some_iff wf idx e c n c).mpr ⟨rfl, he.2⟩⟩
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl
  · intro e _
    rfl
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl

abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (vecScatter_resultIdx?_eq_some_iff wf idx p n).mp hj.2⟩
  · intro e he
    rw [Finset.mem_filter] at he ⊢
    exact ⟨Finset.mem_univ _, (vecScatter_resultIdx?_eq_some_iff wf idx e n).mpr he.2⟩
  · intro j _
    exact (eq_ix1 j).symm
  · intro e _
    rfl
  · intro j _
    exact congrArg upd (eq_ix1 j)

end Idealize.ShloMosaic.RowOps

end
-- ==== Proof.KI.Host.lean ====
import proofs.«417436_j16896401342873_2_alg».proof.Proof.Gen.KernelIdeal.Launch
import proofs.«417436_j16896401342873_2_alg».proof.Proof.Spec
import proofs.«417436_j16896401342873_2_alg».proof.Proof.LibRowOps
import proofs.«417436_j16896401342873_2_alg».proof.Proof.RefRead
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

theorem bcast0_vec_apply {α : Type} {N : Nat} (h : S_.BroadcastsInDim (⟨1, ![N]⟩ : Shape) (![] : Fin 0 → Fin 1)) (x : S_.Idx → α) (e : Fin N) :
    broadcastInDim (⟨1, ![N]⟩ : Shape) ![] h x (ix1 e) = x ix0 :=
  broadcastInDim_apply _ h x (ix1 e) ix0 (fun a => a.elim0)

theorem bcast0_mat_apply {α : Type} {N C : Nat} (h : S_.BroadcastsInDim (⟨2, ![N, C]⟩ : Shape) (![] : Fin 0 → Fin 2)) (x : S_.Idx → α)
    (n : Fin N) (q : Fin C) : broadcastInDim (⟨2, ![N, C]⟩ : Shape) ![] h x (ix2 n q) = x ix0 :=
  broadcastInDim_apply _ h x (ix2 n q) ix0 (fun a => a.elim0)

theorem col_apply {α : Type} (x : S740000.Idx → α) (e : Fin 740000) :
    broadcastInDim S740000x1 ![0] bcast_S740000_S740000x1_0 x (ix2 e (0 : Fin 1)) = x (ix1 e) :=
  broadcastInDim_apply _ bcast_S740000_S740000x1_0 x (ix2 e (0 : Fin 1)) (ix1 e) (fun a => match a with
    | ⟨0, _⟩ => by show e.val = if (740000 : Nat) = 1 then 0 else e.val; rw [if_neg (by decide)])

theorem wrap_apply (row : S740000.Idx → BitVec 32) (e : Fin 740000) :
    (select (cmpi .slt row (broadcastInDim S740000 ![] bcast_S_S740000 (constantI S_ 32 0#32)))
        (addi row (broadcastInDim S740000 ![] bcast_S_S740000 (constantI S_ 32 100000#32))) row : S740000.Idx → BitVec 32) (ix1 e)
      = Cert.Spec.wrapIdx (row (ix1 e)) := by
  show Scalar.select (IntOp.cmpi .slt (row (ix1 e)) (broadcastInDim S740000 ![] bcast_S_S740000 (constantI S_ 32 0#32) (ix1 e)))
      (IntOp.addi (row (ix1 e)) (broadcastInDim S740000 ![] bcast_S_S740000 (constantI S_ 32 100000#32) (ix1 e))) (row (ix1 e)) = _
  rw [bcast0_vec_apply, bcast0_vec_apply]
  rfl

theorem agg_apply {C : Nat}
    (wfS : ScatterDims.WF ⟨2, ![100000, C]⟩ ⟨2, ![740000, 1]⟩ ⟨2, ![740000, C]⟩ [1] [0] [0] 1)
    (wfG : GatherDims.WF ⟨2, ![100000, C]⟩ ⟨2, ![740000, 1]⟩ ⟨2, ![740000, C]⟩ [1] [0] [] [0] [] 1 ![1, C])
    (hb0 : S_.BroadcastsInDim (⟨2, ![100000, C]⟩ : Shape) (![] : Fin 0 → Fin 2))
    (row col : S740000.Idx → BitVec 32) (tab : (⟨2, ![100000, C]⟩ : Shape).Idx → EReal) (n : Fin 100000) (q : Fin C) :
    Ideal.hostScatterAdd (RowOps.rowScatter 100000 740000 C wfS)
      (broadcastInDim (⟨2, ![100000, C]⟩ : Shape) ![] hb0 (constant (F := Ideal) S_ .f32 0x00000000#32))
      (broadcastInDim S740000x1 ![0] bcast_S740000_S740000x1_0 col)
      (Host.gather (RowOps.rowGather 100000 740000 C wfG) tab
        (broadcastInDim S740000x1 ![0] bcast_S740000_S740000x1_0
          (select (cmpi .slt row (broadcastInDim S740000 ![] bcast_S_S740000 (constantI S_ 32 0#32)))
            (addi row (broadcastInDim S740000 ![] bcast_S_S740000 (constantI S_ 32 100000#32))) row))) (ix2 n q)
      = Cert.Spec.zeroF + ∑ e ∈ Cert.Spec.into (fun e => col (ix1 e)) n, tab (ix2 (Cert.Spec.gRow (row (ix1 e))) q) := by
  rw [RowOps.rowScatterAdd_apply]
  refine congrArg₂ (· + ·) ?_ ?_
  · exact bcast0_mat_apply hb0 _ n q
  · unfold Cert.Spec.into
    refine Finset.sum_congr (Finset.filter_congr (fun e _ => by rw [col_apply])) (fun e _ => ?_)
    rw [RowOps.rowGather_apply (by decide)]
    refine congrArg (fun r => tab (ix2 r q)) (Fin.ext ?_)
    unfold Cert.Spec.gRow
    dsimp only
    rw [col_apply, wrap_apply]

theorem host1_agg (Wv : Valuation τ sig (Elt Ideal)) (n : Fin 100000) (q : Fin 128) :
    (StableHlo.after hostOps1 Wv (Proc.devRef .tc main_v26) : S100000x128.Idx → EReal) (ix2 n q)
      = Cert.Spec.zeroF + Finset.sum (M := EReal) (Cert.Spec.into (fun e => Wv (Proc.devRef .tc main_v6) (ix1 e)) n) (fun e =>
          Wv (Proc.devRef .tc main_v16) (ix2 (Cert.Spec.gRow (Wv (Proc.devRef .tc main_v3) (ix1 e))) q)) := by
  have e : (StableHlo.after hostOps1 Wv (Proc.devRef .tc main_v26) : S100000x128.Idx → EReal)
      = Ideal.hostScatterAdd (RowOps.rowScatter 100000 740000 128 scatter_S100000x128_S740000x1_S740000x128_1_0_0_1.wf)
          (broadcastInDim S100000x128 ![] bcast_S_S100000x128 (constant (F := Ideal) S_ .f32 0x00000000#32))
          (broadcastInDim S740000x1 ![0] bcast_S740000_S740000x1_0 (Wv (Proc.devRef .tc main_v6)))
          (Host.gather (RowOps.rowGather 100000 740000 128 gather_S100000x128_S740000x1_S740000x128_1_0_n_n_0_1_1128.wf)
            (Wv (Proc.devRef .tc main_v16))
            (broadcastInDim S740000x1 ![0] bcast_S740000_S740000x1_0
              (select (cmpi .slt (Wv (Proc.devRef .tc main_v3)) (broadcastInDim S740000 ![] bcast_S_S740000 (constantI S_ 32 0#32)))
                (addi (Wv (Proc.devRef .tc main_v3)) (broadcastInDim S740000 ![] bcast_S_S740000 (constantI S_ 32 100000#32)))
                (Wv (Proc.devRef .tc main_v3))))) := by
    show StableHlo.after hostOps1 Wv (Proc.devRef .tc main_v26) = _
    after_results
    rfl
  exact (congrFun e (ix2 n q)).trans (agg_apply _ _ bcast_S_S100000x128 (Wv (Proc.devRef .tc main_v3)) (Wv (Proc.devRef .tc main_v6))
    (Wv (Proc.devRef .tc main_v16)) n q)

theorem host1_bias (Wv : Valuation τ sig (Elt Ideal)) (q : Fin 128) :
    (StableHlo.after hostOps1 Wv (Proc.devRef .tc main_v27) : S1x128.Idx → EReal) (ix2 (0 : Fin 1) q)
      = (Wv (Proc.devRef .tc main_arg4) : S128.Idx → EReal) (ix1 q) := by
  have e : (StableHlo.after hostOps1 Wv (Proc.devRef .tc main_v27) : S1x128.Idx → EReal)
      = shapeCast S1x128 (Wv (Proc.devRef .tc main_arg4) : S128.Idx → EReal) shapeCasts_S128_S1x128 := by
    show StableHlo.after hostOps1 Wv (Proc.devRef .tc main_v27) = _
    after_results
    rfl
  rw [e]
  exact shapeCast_apply _ shapeCasts_S128_S1x128 (ix2 (0 : Fin 1) q) (ix1 q)
    (by rw [Shape.rowMajor_val_two, Shape.rowMajor_val_one]; show q.val = 0 * 128 + q.val; omega)

theorem host3_agg (Wv : Valuation τ sig (Elt Ideal)) (n : Fin 100000) (q : Fin 64) :
    (StableHlo.after hostOps3 Wv (Proc.devRef .tc main_v39) : S100000x64.Idx → EReal) (ix2 n q)
      = Cert.Spec.zeroF + Finset.sum (M := EReal) (Cert.Spec.into (fun e => Wv (Proc.devRef .tc main_v6) (ix1 e)) n) (fun e =>
          Wv (Proc.devRef .tc main_v29) (ix2 (Cert.Spec.gRow (Wv (Proc.devRef .tc main_v3) (ix1 e))) q)) := by
  have e : (StableHlo.after hostOps3 Wv (Proc.devRef .tc main_v39) : S100000x64.Idx → EReal)
      = Ideal.hostScatterAdd (RowOps.rowScatter 100000 740000 64 scatter_S100000x64_S740000x1_S740000x64_1_0_0_1.wf)
          (broadcastInDim S100000x64 ![] bcast_S_S100000x64 (constant (F := Ideal) S_ .f32 0x00000000#32))
          (broadcastInDim S740000x1 ![0] bcast_S740000_S740000x1_0 (Wv (Proc.devRef .tc main_v6)))
          (Host.gather (RowOps.rowGather 100000 740000 64 gather_S100000x64_S740000x1_S740000x64_1_0_n_n_0_1_164.wf)
            (Wv (Proc.devRef .tc main_v29))
            (broadcastInDim S740000x1 ![0] bcast_S740000_S740000x1_0
              (select (cmpi .slt (Wv (Proc.devRef .tc main_v3)) (broadcastInDim S740000 ![] bcast_S_S740000 (constantI S_ 32 0#32)))
                (addi (Wv (Proc.devRef .tc main_v3)) (broadcastInDim S740000 ![] bcast_S_S740000 (constantI S_ 32 100000#32)))
                (Wv (Proc.devRef .tc main_v3))))) := by
    show StableHlo.after hostOps3 Wv (Proc.devRef .tc main_v39) = _
    after_results
    rfl
  exact (congrFun e (ix2 n q)).trans (agg_apply _ _ bcast_S_S100000x64 (Wv (Proc.devRef .tc main_v3)) (Wv (Proc.devRef .tc main_v6))
    (Wv (Proc.devRef .tc main_v29)) n q)

theorem host3_bias (Wv : Valuation τ sig (Elt Ideal)) (q : Fin 64) :
    (StableHlo.after hostOps3 Wv (Proc.devRef .tc main_v40) : S1x64.Idx → EReal) (ix2 (0 : Fin 1) q)
      = (Wv (Proc.devRef .tc main_arg6) : S64.Idx → EReal) (ix1 q) := by
  have e : (StableHlo.after hostOps3 Wv (Proc.devRef .tc main_v40) : S1x64.Idx → EReal)
      = shapeCast S1x64 (Wv (Proc.devRef .tc main_arg6) : S64.Idx → EReal) shapeCasts_S64_S1x64 := by
    show StableHlo.after hostOps3 Wv (Proc.devRef .tc main_v40) = _
    after_results
    rfl
  rw [e]
  exact shapeCast_apply _ shapeCasts_S64_S1x64 (ix2 (0 : Fin 1) q) (ix1 q)
    (by rw [Shape.rowMajor_val_two, Shape.rowMajor_val_one]; show q.val = 0 * 64 + q.val; omega)

theorem host4_batch (Wv : Valuation τ sig (Elt Ideal)) (n : Fin 100000) :
    (StableHlo.after hostOps4 Wv (Proc.devRef .tc main_v42) : S100000x1.Idx → BitVec 32) (ix2 n (0 : Fin 1))
      = (Wv (Proc.devRef .tc main_arg2) : S100000.Idx → BitVec 32) (ix1 n) := by
  have e : (StableHlo.after hostOps4 Wv (Proc.devRef .tc main_v42) : S100000x1.Idx → BitVec 32)
      = shapeCast S100000x1 (Wv (Proc.devRef .tc main_arg2) : S100000.Idx → BitVec 32) shapeCasts_S100000_S100000x1 := by
    show StableHlo.after hostOps4 Wv (Proc.devRef .tc main_v42) = _
    after_results
    rfl
  rw [e]
  exact shapeCast_apply _ shapeCasts_S100000_S100000x1 (ix2 n (0 : Fin 1)) (ix1 n)
    (by rw [Shape.rowMajor_val_two, Shape.rowMajor_val_one]; show n.val = n.val * 1 + 0; omega)

abbrev afterPrefix (Wv : Valuation τ sig (Elt Ideal)) : Valuation τ sig (Elt Ideal) :=
  StableHlo.after hostOps0_2 (StableHlo.after hostOps0_1 (StableHlo.after hostOps0 Wv))

theorem pre_row (Wv : Valuation τ sig (Elt Ideal)) :
    afterPrefix Wv (Proc.devRef .tc main_v3) = Cert.ReferenceIdeal.ReadP.val_main_v3 (F := Ideal) (Wv (Proc.devRef .tc main_arg1)) := by
  show StableHlo.after hostOps0_2 (StableHlo.after hostOps0_1 (StableHlo.after hostOps0 Wv)) (Proc.devRef .tc main_v3) = _
  after_results
  unfold Cert.ReferenceIdeal.ReadP.val_main_v3 Cert.ReferenceIdeal.ReadP.val_main_v2 Cert.ReferenceIdeal.ReadP.val_main_v1 Cert.ReferenceIdeal.ReadP.val_main_v0
  rfl

theorem pre_col (Wv : Valuation τ sig (Elt Ideal)) :
    afterPrefix Wv (Proc.devRef .tc main_v6) = Cert.ReferenceIdeal.ReadP.val_main_v6 (F := Ideal) (Wv (Proc.devRef .tc main_arg1)) := by
  show StableHlo.after hostOps0_2 (StableHlo.after hostOps0_1 (StableHlo.after hostOps0 Wv)) (Proc.devRef .tc main_v6) = _
  after_results
  unfold Cert.ReferenceIdeal.ReadP.val_main_v6 Cert.ReferenceIdeal.ReadP.val_main_v5 Cert.ReferenceIdeal.ReadP.val_main_v4 Cert.ReferenceIdeal.ReadP.val_main_v0
  rfl

section AnyFloats
variable {F : FTy → Type} [FloatOps F]

theorem pre_dinv_vec (Wv : Valuation τ sig (Elt F)) :
    StableHlo.after hostOps0_2 (StableHlo.after hostOps0_1 (StableHlo.after hostOps0 Wv)) (Proc.devRef .tc main_v14)
      = Cert.ReferenceIdeal.ReadP.val_main_v14 (F := F) (Wv (Proc.devRef .tc main_arg1)) := by
  after_results
  simp only [StableHlo.TRef.ofBuf, StableHlo.TRef.toBuf, cast_eq]
  rfl

end AnyFloats

theorem pre_dinv (Wv : Valuation τ sig (Elt Ideal)) (n : Fin 100000) :
    (afterPrefix Wv (Proc.devRef .tc main_v15) : S100000x1.Idx → EReal) (ix2 n (0 : Fin 1))
      = (Cert.ReferenceIdeal.ReadP.val_main_v14 (F := Ideal) (Wv (Proc.devRef .tc main_arg1)) : S100000.Idx → EReal) (ix1 n) := by
  have e : ∀ W2 : Valuation τ sig (Elt Ideal), (StableHlo.after hostOps0_2 W2 (Proc.devRef .tc main_v15) : S100000x1.Idx → EReal)
      = shapeCast S100000x1 (W2 (Proc.devRef .tc main_v14) : S100000.Idx → EReal) shapeCasts_S100000_S100000x1 := by
    intro W2
    show StableHlo.after hostOps0_2 W2 (Proc.devRef .tc main_v15) = _
    after_results
    rfl
  refine (congrFun (e _) (ix2 n (0 : Fin 1))).trans ?_
  refine (shapeCast_apply _ shapeCasts_S100000_S100000x1 (ix2 n (0 : Fin 1)) (ix1 n)
    (by rw [Shape.rowMajor_val_two, Shape.rowMajor_val_one]; show n.val = n.val * 1 + 0; omega)).trans ?_
  exact congrFun (pre_dinv_vec (F := Ideal) Wv) (ix1 n)

end Cert.KernelIdeal.Hand

end
-- ==== Proof.KI.Val0.lean ====
import proofs.«417436_j16896401342873_2_alg».proof.Proof.KI.R0
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen
open scoped BigOperators

variable (V : (c : Dev nD) → (b : Ref sig .tc) → Buf (Elt Ideal) ((c : Thread nD τ).loc b))

abbrev feat0 (c : Dev nD) : S100000x128.Idx → EReal := V c main_arg0

abbrev wts0 (c : Dev nD) : S128x128.Idx → EReal := V c main_arg3

abbrev scl0 (c : Dev nD) : S100000x1.Idx → EReal := V c main_v15

def prod0 (c : Dev nD) (n : Fin 100000) (q : Fin 128) : EReal :=
  (∑ k : Fin 128, feat0 V c (ix2 n k) * wts0 V c (ix2 k q)) * scl0 V c (ix2 n 0)

def prodArr0 (c : Dev nD) : S100000x128.Idx → EReal := fun i => prod0 V c (i 0) (i 1)

theorem noOffset0 : (![0, 0] : Fin 2 → Nat) = fun _ => 0 := funext fun a => by fin_cases a <;> rfl

theorem mm0_lhs_row (i : S10000x128.Idx) (p : dot_S10000x128_S128x128_S10000x128_1_0_0_1_n_n.contr.Idx) :
    (dot_S10000x128_S128x128_S10000x128_1_0_0_1_n_n.lhsIdx i p 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem mm0_lhs_col (i : S10000x128.Idx) (p : dot_S10000x128_S128x128_S10000x128_1_0_0_1_n_n.contr.Idx) :
    (dot_S10000x128_S128x128_S10000x128_1_0_0_1_n_n.lhsIdx i p 1).val = (p ⟨0, by decide⟩).val :=
  dot_S10000x128_S128x128_S10000x128_1_0_0_1_n_n.lhsIdx_val_of_single rfl i p

theorem mm0_rhs_row (i : S10000x128.Idx) (p : dot_S10000x128_S128x128_S10000x128_1_0_0_1_n_n.contr.Idx) :
    (dot_S10000x128_S128x128_S10000x128_1_0_0_1_n_n.rhsIdx i p 0).val = (p ⟨0, by decide⟩).val :=
  dot_S10000x128_S128x128_S10000x128_1_0_0_1_n_n.rhsIdx_val_of_single rfl i p

theorem mm0_rhs_col (i : S10000x128.Idx) (p : dot_S10000x128_S128x128_S10000x128_1_0_0_1_n_n.contr.Idx) :
    (dot_S10000x128_S128x128_S10000x128_1_0_0_1_n_n.rhsIdx i p 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem mm0_at (x0 : FVec Ideal S10000x128 .f32) (x1 : FVec Ideal S128x128 .f32) (r : Fin 10000) (q : Fin 128) :
    FloatOps.matmul (F := Ideal) dot_S10000x128_S128x128_S10000x128_1_0_0_1_n_n none x0 x1 (constant (F := Ideal) S10000x128 .f32 0x00000000#32) (ix2 r q)
      = ∑ k : Fin 128, x0 (ix2 r k) * x1 (ix2 k q) := by
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 r q) ((ValueIdx.contrEquiv1 dot_S10000x128_S128x128_S10000x128_1_0_0_1_n_n 128 rfl rfl).symm k) = ix2 r k := funext fun a => Fin.ext (by
    match a with
    | ⟨0, _⟩ => exact mm0_lhs_row _ _
    | ⟨1, _⟩ => exact (mm0_lhs_col _ _).trans hk)
  have er : dot_S10000x128_S128x128_S10000x128_1_0_0_1_n_n.rhsIdx (ix2 r q) ((ValueIdx.contrEquiv1 dot_S10000x128_S128x128_S10000x128_1_0_0_1_n_n 128 rfl rfl).symm k) = ix2 k q := funext fun a => Fin.ext (by
    match a with
    | ⟨0, _⟩ => exact (mm0_rhs_row _ _).trans hk
    | ⟨1, _⟩ => exact mm0_rhs_col _ _)
  rw [el, er]

theorem spread0_at (x2 : Vec Ideal S10000x1 .f32) (r : Fin 10000) (q : Fin 128) :
    broadcastTo S10000x128 (shapeCast S10000x1 x2 shapeCasts_S10000x1_S10000x1) broadcasts_S10000x1_S10000x128 (ix2 r q)
      = x2 (ix2 r 0) := by
  rw [shapeCast_self]
  refine broadcastTo_apply x2 broadcasts_S10000x1_S10000x128 (ix2 r q) (ix2 r 0) fun a => ?_
  match a with
  | ⟨0, _⟩ => rfl
  | ⟨1, _⟩ => rfl

theorem pay0_at (x0 : Vec Ideal S10000x128 .f32) (x1 : Vec Ideal S128x128 .f32) (x2 : Vec Ideal S10000x1 .f32)
    (r : Fin 10000) (q : Fin 128) :
    k0_pay1 (F := Ideal) x0 x1 x2 (ix2 r q) = (∑ k : Fin 128, x0 (ix2 r k) * x1 (ix2 k q)) * x2 (ix2 r 0) := by
  unfold k0_pay1
  show FloatOps.matmul (F := Ideal) dot_S10000x128_S128x128_S10000x128_1_0_0_1_n_n none x0 x1 (constant (F := Ideal) S10000x128 .f32 0x00000000#32) (ix2 r q)
      * broadcastTo S10000x128 (shapeCast S10000x1 x2 shapeCasts_S10000x1_S10000x1) broadcasts_S10000x1_S10000x128 (ix2 r q) = _
  rw [mm0_at, spread0_at]

theorem where0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem rowOf0 (t : Fin cfg0.N) (r : Fin 10000) : t.val * 10000 + r.val < 100000 := by
  have hN : cfg0.N = 10 := N_0
  have h1 := t.isLt
  have h2 := r.isLt
  omega

theorem feat0_blk (c : Dev nD) (t : Fin cfg0.N) (r : Fin 10000) (k : Fin 128) :
    (iblk0 V c 0 t : Vec Ideal S10000x128 .f32) (ix2 r k) = feat0 V c (ix2 ⟨t.val * 10000 + r.val, rowOf0 t r⟩ k) := by
  obtain ⟨e0, e1, -⟩ := where0 t
  unfold iblk0
  rw [View.read_apply]
  show V c main_arg0 _ = V c main_arg0 _
  refine congrArg (V c main_arg0) (funext fun a => Fin.ext ?_)
  match a with
  | ⟨0, _⟩ => show win0_0.index t (0 : Fin 2) * 10000 + 1 * r.val = t.val * 10000 + r.val; rw [e0]; omega
  | ⟨1, _⟩ => show win0_0.index t (1 : Fin 2) * 128 + 1 * k.val = k.val; rw [e1]; omega

theorem wts0_blk (c : Dev nD) (t : Fin cfg0.N) (k : Fin 128) (q : Fin 128) :
    (iblk0 V c 1 t : Vec Ideal S128x128 .f32) (ix2 k q) = wts0 V c (ix2 k q) := by
  obtain ⟨-, -, e0, e1, -⟩ := where0 t
  unfold iblk0
  rw [View.read_apply]
  show V c main_arg3 _ = V c main_arg3 _
  refine congrArg (V c main_arg3) (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

theorem scl0_blk (c : Dev nD) (t : Fin cfg0.N) (r : Fin 10000) :
    (iblk0 V c 2 t : Vec Ideal S10000x1 .f32) (ix2 r 0) = scl0 V c (ix2 ⟨t.val * 10000 + r.val, rowOf0 t r⟩ 0) := by
  obtain ⟨-, -, -, -, e0, e1, -⟩ := where0 t
  unfold iblk0
  rw [View.read_apply]
  show V c main_v15 _ = V c main_v15 _
  refine congrArg (V c main_v15) (funext fun a => Fin.ext ?_)
  match a with
  | ⟨0, _⟩ => show win0_2.index t (0 : Fin 2) * 10000 + 1 * r.val = t.val * 10000 + r.val; rw [e0]; omega
  | ⟨1, _⟩ => show win0_2.index t (1 : Fin 2) * 1 + 1 * 0 = 0; rw [e1]

theorem stored0_at (c : Dev nD) (t : Fin cfg0.N) (r : Fin 10000) (q : Fin 128) :
    k0_pay1 (F := Ideal) (iblk0 V c 0 t) (iblk0 V c 1 t) (iblk0 V c 2 t) (ix2 r q)
      = prod0 V c ⟨t.val * 10000 + r.val, rowOf0 t r⟩ q := by
  refine (pay0_at (iblk0 V c 0 t) (iblk0 V c 1 t) (iblk0 V c 2 t) r q).trans ?_
  unfold prod0
  exact congrArg₂ (· * ·)
    (Finset.sum_congr rfl fun k _ => congrArg₂ (· * ·) (feat0_blk V c t r k) (wts0_blk V c t k q))
    (scl0_blk V c t r)

theorem stored0 (c : Dev nD) (t : Fin cfg0.N) :
    (k0_pay1 (F := Ideal) (iblk0 V c 0 t) (iblk0 V c 1 t) (iblk0 V c 2 t) : S10000x128.Idx → EReal)
      = fun j => prod0 V c ⟨t.val * 10000 + (j 0).val, rowOf0 t (j 0)⟩ (j 1) := by
  funext j
  exact (congrArg (k0_pay1 (F := Ideal) (iblk0 V c 0 t) (iblk0 V c 1 t) (iblk0 V c 2 t)) (eq_ix2 j)).trans
    (stored0_at V c t (j 0) (j 1))

theorem wrote0 (c : Dev nD) (t : Fin cfg0.N) :
    (dat0 (F := Ideal) V c).flushed 3 t = ((cfg0.win 3).blk t).view.read (Elt Ideal) (prodArr0 V c) := by
  obtain ⟨-, -, -, -, -, -, e0, e1⟩ := where0 t
  show (cfg0.win 3).cut (grid0.coords t) ((dat0 V c).after 3 t) = _
  rw [after0_3]
  unfold out0_3
  rw [View.canon_unit_zero noOffset0]
  simp only [View.ld_unit_zero (S := S10000x128) noOffset0, View.ld_unit_zero (S := S128x128) noOffset0, View.ld_unit_zero (S := S10000x1) noOffset0]
  rw [stored0]
  funext j
  show prod0 V c ⟨t.val * 10000 + (j 0).val, rowOf0 t (j 0)⟩ (j 1)
      = prod0 V c ((((cfg0.win 3).blk t).view.emb j) 0) ((((cfg0.win 3).blk t).view.emb j) 1)
  refine congrArg₂ (prod0 V c) (Fin.ext ?_) (Fin.ext ?_)
  · show t.val * 10000 + (j 0).val = win0_3.index t (0 : Fin 2) * 10000 + 1 * (j 0).val; rw [e0]; omega
  · show (j 1).val = win0_3.index t (1 : Fin 2) * 128 + 1 * (j 1).val; rw [e1]; omega

theorem owned0 (i : S100000x128.Idx) :
    ∃ t : Fin cfg0.N, (cfg0.win 3).flush t = true ∧ i ∈ ((cfg0.win 3).blk t).view.set := by
  have h0 : (i 0).val < 100000 := (i 0).isLt
  have h1 : (i 1).val < 128 := (i 1).isLt
  have hN : cfg0.N = 10 := N_0
  let t : Fin cfg0.N := ⟨(i 0).val / 10000, by rw [hN]; omega⟩
  obtain ⟨-, -, -, -, -, -, e0, e1⟩ := where0 t
  have et : t.val = (i 0).val / 10000 := rfl
  refine ⟨t, flush0_3 t, ?_⟩
  show i ∈ ((View.whole main_v16).slice (win0_3.rect t)).set
  rw [View.set_slice_whole, Rect.mem_set_unit]
  intro a
  match a with
  | ⟨0, _⟩ =>
    show win0_3.index t (0 : Fin 2) * 10000 ≤ (i 0).val ∧ (i 0).val < win0_3.index t (0 : Fin 2) * 10000 + 10000
    rw [e0, et]; omega
  | ⟨1, _⟩ =>
    show win0_3.index t (1 : Fin 2) * 128 ≤ (i 1).val ∧ (i 1).val < win0_3.index t (1 : Fin 2) * 128 + 128
    rw [e1]; omega

theorem finalArr0 (c : Dev nD) : (dat0 (F := Ideal) V c).arrAt 3 cfg0.N = prodArr0 V c :=
  (dat0 (F := Ideal) V c).arrAt_eq_of_cover 3 (prodArr0 V c) (fun t _ => wrote0 V c t) owned0

theorem final0 (c : Dev nD) (n : Fin 100000) (q : Fin 128) :
    (dat0 (F := Ideal) V c).arrAt 3 cfg0.N (ix2 n q)
      = (∑ k : Fin 128, feat0 V c (ix2 n k) * wts0 V c (ix2 k q)) * scl0 V c (ix2 n 0) := by
  rw [finalArr0]
  rfl

end Cert.KernelIdeal.Hand
end
-- ==== Proof.KI.Val1.lean ====
import proofs.«417436_j16896401342873_2_alg».proof.Proof.KI.R1
import proofs.«417436_j16896401342873_2_alg».proof.Proof.Spec
import Idealize.ShloMosaic.Lib.Pipeline.Value
import Idealize.ShloMosaic.Lib.ValueIdx
import Idealize.ShloMosaic.Lib.Tactic

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

theorem zeroOff1 : (![0, 0] : Fin 2 → Nat) = fun _ => 0 := funext fun a => by fin_cases a <;> rfl

theorem scaleBiasCut_apply (x0 : Vec Ideal S10000x128 .f32) (x1 : Vec Ideal S10000x1 .f32) (x2 : Vec Ideal S1x128 .f32)
    (r : Fin 10000) (j : Fin 128) :
    k1_pay1 x0 x1 x2 (ix2 r j) = max (x0 (ix2 r j) * x1 (ix2 r 0) + x2 (ix2 0 j)) Cert.Spec.zeroF := by
  unfold k1_pay1
  simp only [shapeCast_self]

  have hcol : broadcastTo S10000x128 x1 broadcasts_S10000x1_S10000x128 (ix2 r j) = x1 (ix2 r 0) :=
    broadcastTo_apply x1 broadcasts_S10000x1_S10000x128 (ix2 r j) (ix2 r 0) (fun a => by
      match a with
      | ⟨0, _⟩ => rfl
      | ⟨1, _⟩ => rfl)

  have hrow : broadcastTo S10000x128 x2 broadcasts_S1x128_S10000x128 (ix2 r j) = x2 (ix2 0 j) :=
    broadcastTo_apply x2 broadcasts_S1x128_S10000x128 (ix2 r j) (ix2 0 j) (fun a => by
      match a with
      | ⟨0, _⟩ => rfl
      | ⟨1, _⟩ => rfl)
  show max (x0 (ix2 r j) * broadcastTo S10000x128 x1 broadcasts_S10000x1_S10000x128 (ix2 r j)
      + broadcastTo S10000x128 x2 broadcasts_S1x128_S10000x128 (ix2 r j)) (Ideal.ofBits .f32 0x00000000#32) = _
  rw [hcol, hrow]

abbrev G1 (a0 : S100000x128.Idx → EReal) (a1 : S100000x1.Idx → EReal) (a2 : S1x128.Idx → EReal) : S100000x128.Idx → EReal :=
  fun i => max (a0 i * a1 (ix2 (i 0) 0) + a2 (ix2 0 (i 1))) Cert.Spec.zeroF

theorem entry1 (x0 : Vec Ideal S10000x128 .f32) (x1 : Vec Ideal S10000x1 .f32) (x2 : Vec Ideal S1x128 .f32)
    (a0 : S100000x128.Idx → EReal) (a1 : S100000x1.Idx → EReal) (a2 : S1x128.Idx → EReal)
    (y : S10000x128.Idx) (i : S100000x128.Idx)
    (h0 : x0 (ix2 (y 0) (y 1)) = a0 i) (h1 : x1 (ix2 (y 0) 0) = a1 (ix2 (i 0) 0)) (h2 : x2 (ix2 0 (y 1)) = a2 (ix2 0 (i 1))) :
    k1_pay1 x0 x1 x2 y = G1 a0 a1 a2 i := by
  refine (congrArg (k1_pay1 x0 x1 x2) (eq_ix2 y)).trans ?_
  refine (scaleBiasCut_apply x0 x1 x2 (y 0) (y 1)).trans ?_
  rw [h0, h1, h2]

theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem flushed1_eq (c : Dev nD) (t : Fin cfg1.N) :
    (dat1 V c).flushed 3 t = ((cfg1.win 3).blk t).view.read (Elt Ideal) (G1 (V c main_v26) (V c main_v15) (V c main_v27)) := by
  show (cfg1.win 3).cut (grid1.coords t) ((dat1 V c).after 3 t) = _
  rw [after1_3]
  unfold out1_3
  rw [View.canon_unit_zero zeroOff1]
  simp only [View.ld_unit_zero (S := S10000x128) zeroOff1, View.ld_unit_zero (S := S10000x1) zeroOff1, View.ld_unit_zero (S := S1x128) zeroOff1]
  obtain ⟨e00, e01, e10, e11, e20, e21, e30, e31⟩ := blockIdx1 t
  funext y
  refine entry1 (iblk1 V c 0 t) (iblk1 V c 1 t) (iblk1 V c 2 t) (V c main_v26) (V c main_v15) (V c main_v27) y
    (((cfg1.win 3).blk t).view.emb y) ?_ ?_ ?_
  ·
    show V c main_v26 (((cfg1.win 0).blk t).view.emb (ix2 (y 0) (y 1))) = V c main_v26 (((cfg1.win 3).blk t).view.emb y)
    refine congrArg (V c main_v26) (funext fun a => Fin.ext ?_)
    match a with
    | ⟨0, _⟩ => show win1_0.index t (0 : Fin 2) * 10000 + 1 * (y 0).val = win1_3.index t (0 : Fin 2) * 10000 + 1 * (y 0).val; omega
    | ⟨1, _⟩ => show win1_0.index t (1 : Fin 2) * 128 + 1 * (y 1).val = win1_3.index t (1 : Fin 2) * 128 + 1 * (y 1).val; omega
  ·
    show V c main_v15 (((cfg1.win 1).blk t).view.emb (ix2 (y 0) 0)) = V c main_v15 (ix2 ((((cfg1.win 3).blk t).view.emb y) 0) 0)
    refine congrArg (V c main_v15) (funext fun a => Fin.ext ?_)
    match a with
    | ⟨0, _⟩ => show win1_1.index t (0 : Fin 2) * 10000 + 1 * (y 0).val = win1_3.index t (0 : Fin 2) * 10000 + 1 * (y 0).val; omega
    | ⟨1, _⟩ => show win1_1.index t (1 : Fin 2) * 1 + 1 * 0 = 0; omega
  ·
    show V c main_v27 (((cfg1.win 2).blk t).view.emb (ix2 0 (y 1))) = V c main_v27 (ix2 0 ((((cfg1.win 3).blk t).view.emb y) 1))
    refine congrArg (V c main_v27) (funext fun a => Fin.ext ?_)
    match a with
    | ⟨0, _⟩ => show win1_2.index t (0 : Fin 2) * 1 + 1 * 0 = 0; omega
    | ⟨1, _⟩ => show win1_2.index t (1 : Fin 2) * 128 + 1 * (y 1).val = win1_3.index t (1 : Fin 2) * 128 + 1 * (y 1).val; omega

theorem mem_blk1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v28).slice (win1_3.rect t)).set ↔ _
  rw [View.set_slice_whole, Rect.mem_set_unit]
  exact Iff.rfl

theorem covered1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  have hlt : (i 0).val / 10000 < cfg1.N := by rw [hN]; omega
  obtain ⟨-, -, -, -, -, -, e30, e31⟩ := blockIdx1 ⟨(i 0).val / 10000, hlt⟩
  have e30' : win1_3.index ⟨(i 0).val / 10000, hlt⟩ (0 : Fin 2) = (i 0).val / 10000 := e30
  refine ⟨⟨(i 0).val / 10000, hlt⟩, flush1_3 _, ?_⟩
  rw [mem_blk1]
  intro a
  match a with
  | ⟨0, _⟩ =>
    show win1_3.index ⟨(i 0).val / 10000, hlt⟩ (0 : Fin 2) * 10000 ≤ (i 0).val ∧ (i 0).val < win1_3.index ⟨(i 0).val / 10000, hlt⟩ (0 : Fin 2) * 10000 + 10000
    omega
  | ⟨1, _⟩ =>
    show win1_3.index ⟨(i 0).val / 10000, hlt⟩ (1 : Fin 2) * 128 ≤ (i 1).val ∧ (i 1).val < win1_3.index ⟨(i 0).val / 10000, hlt⟩ (1 : Fin 2) * 128 + 128
    omega

theorem finalFun1 (c : Dev nD) :
    (dat1 (F := Ideal) V c).arrAt 3 cfg1.N = G1 (V c main_v26) (V c main_v15) (V c main_v27) :=
  (dat1 V c).arrAt_eq_of_cover 3 (G1 (V c main_v26) (V c main_v15) (V c main_v27)) (fun t _ => flushed1_eq V c t) covered1

abbrev aggArr1 (c : Dev nD) : S100000x128.Idx → EReal := V c main_v26
abbrev dinvArr1 (c : Dev nD) : S100000x1.Idx → EReal := V c main_v15
abbrev biasArr1 (c : Dev nD) : S1x128.Idx → EReal := V c main_v27

theorem final1 (c : Dev nD) (n : Fin 100000) (q : Fin 128) :
    (dat1 (F := Ideal) V c).arrAt 3 cfg1.N (ix2 n q) = max (aggArr1 V c (ix2 n q) * dinvArr1 V c (ix2 n 0) + biasArr1 V c (ix2 0 q)) Cert.Spec.zeroF :=
  congrFun (finalFun1 V c) (ix2 n q)

end Cert.KernelIdeal.Hand

end
-- ==== Proof.KI.Val2.lean ====
import proofs.«417436_j16896401342873_2_alg».proof.Proof.KI.R2
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen
open scoped BigOperators

variable (V : (c : Dev nD) → (b : Ref sig .tc) → Buf (Elt Ideal) ((c : Thread nD τ).loc b))

abbrev hid2 (c : Dev nD) : S100000x128.Idx → EReal := V c main_v28

abbrev wts2 (c : Dev nD) : S128x64.Idx → EReal := V c main_arg5

abbrev scl2 (c : Dev nD) : S100000x1.Idx → EReal := V c main_v15

def prod2 (c : Dev nD) (n : Fin 100000) (q : Fin 64) : EReal :=
  (∑ k : Fin 128, hid2 V c (ix2 n k) * wts2 V c (ix2 k q)) * scl2 V c (ix2 n 0)

def prodArr2 (c : Dev nD) : S100000x64.Idx → EReal := fun i => prod2 V c (i 0) (i 1)

theorem noOffset2 : (![0, 0] : Fin 2 → Nat) = fun _ => 0 := funext fun a => by fin_cases a <;> rfl

theorem mm2_lhs_row (i : S10000x64.Idx) (p : dot_S10000x128_S128x64_S10000x64_1_0_0_1_n_n.contr.Idx) :
    (dot_S10000x128_S128x64_S10000x64_1_0_0_1_n_n.lhsIdx i p 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl

theorem mm2_lhs_col (i : S10000x64.Idx) (p : dot_S10000x128_S128x64_S10000x64_1_0_0_1_n_n.contr.Idx) :
    (dot_S10000x128_S128x64_S10000x64_1_0_0_1_n_n.lhsIdx i p 1).val = (p ⟨0, by decide⟩).val :=
  dot_S10000x128_S128x64_S10000x64_1_0_0_1_n_n.lhsIdx_val_of_single rfl i p

theorem mm2_rhs_row (i : S10000x64.Idx) (p : dot_S10000x128_S128x64_S10000x64_1_0_0_1_n_n.contr.Idx) :
    (dot_S10000x128_S128x64_S10000x64_1_0_0_1_n_n.rhsIdx i p 0).val = (p ⟨0, by decide⟩).val :=
  dot_S10000x128_S128x64_S10000x64_1_0_0_1_n_n.rhsIdx_val_of_single rfl i p

theorem mm2_rhs_col (i : S10000x64.Idx) (p : dot_S10000x128_S128x64_S10000x64_1_0_0_1_n_n.contr.Idx) :
    (dot_S10000x128_S128x64_S10000x64_1_0_0_1_n_n.rhsIdx i p 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem mm2_at (x0 : FVec Ideal S10000x128 .f32) (x1 : FVec Ideal S128x64 .f32) (r : Fin 10000) (q : Fin 64) :
    FloatOps.matmul (F := Ideal) dot_S10000x128_S128x64_S10000x64_1_0_0_1_n_n none x0 x1 (constant (F := Ideal) S10000x64 .f32 0x00000000#32) (ix2 r q)
      = ∑ k : Fin 128, x0 (ix2 r k) * x1 (ix2 k q) := by
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 r q) ((ValueIdx.contrEquiv1 dot_S10000x128_S128x64_S10000x64_1_0_0_1_n_n 128 rfl rfl).symm k) = ix2 r k := funext fun a => Fin.ext (by
    match a with
    | ⟨0, _⟩ => exact mm2_lhs_row _ _
    | ⟨1, _⟩ => exact (mm2_lhs_col _ _).trans hk)
  have er : dot_S10000x128_S128x64_S10000x64_1_0_0_1_n_n.rhsIdx (ix2 r q) ((ValueIdx.contrEquiv1 dot_S10000x128_S128x64_S10000x64_1_0_0_1_n_n 128 rfl rfl).symm k) = ix2 k q := funext fun a => Fin.ext (by
    match a with
    | ⟨0, _⟩ => exact (mm2_rhs_row _ _).trans hk
    | ⟨1, _⟩ => exact mm2_rhs_col _ _)
  rw [el, er]

theorem spread2_at (x2 : Vec Ideal S10000x1 .f32) (r : Fin 10000) (q : Fin 64) :
    broadcastTo S10000x64 (shapeCast S10000x1 x2 shapeCasts_S10000x1_S10000x1) broadcasts_S10000x1_S10000x64 (ix2 r q)
      = x2 (ix2 r 0) := by
  rw [shapeCast_self]
  refine broadcastTo_apply x2 broadcasts_S10000x1_S10000x64 (ix2 r q) (ix2 r 0) fun a => ?_
  match a with
  | ⟨0, _⟩ => rfl
  | ⟨1, _⟩ => rfl

theorem pay2_at (x0 : Vec Ideal S10000x128 .f32) (x1 : Vec Ideal S128x64 .f32) (x2 : Vec Ideal S10000x1 .f32)
    (r : Fin 10000) (q : Fin 64) :
    k2_pay1 (F := Ideal) x0 x1 x2 (ix2 r q) = (∑ k : Fin 128, x0 (ix2 r k) * x1 (ix2 k q)) * x2 (ix2 r 0) := by
  unfold k2_pay1
  show FloatOps.matmul (F := Ideal) dot_S10000x128_S128x64_S10000x64_1_0_0_1_n_n none
        (shapeCast S10000x128 x0 shapeCasts_S10000x128_S10000x128) x1 (constant (F := Ideal) S10000x64 .f32 0x00000000#32) (ix2 r q)
      * broadcastTo S10000x64 (shapeCast S10000x1 x2 shapeCasts_S10000x1_S10000x1) broadcasts_S10000x1_S10000x64 (ix2 r q) = _
  rw [shapeCast_self x0 shapeCasts_S10000x128_S10000x128, mm2_at, spread2_at]

theorem where2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem rowOf2 (t : Fin cfg2.N) (r : Fin 10000) : t.val * 10000 + r.val < 100000 := by
  have hN : cfg2.N = 10 := N_2
  have h1 := t.isLt
  have h2 := r.isLt
  omega

theorem hid2_blk (c : Dev nD) (t : Fin cfg2.N) (r : Fin 10000) (k : Fin 128) :
    (iblk2 V c 0 t : Vec Ideal S10000x128 .f32) (ix2 r k) = hid2 V c (ix2 ⟨t.val * 10000 + r.val, rowOf2 t r⟩ k) := by
  obtain ⟨e0, e1, -⟩ := where2 t
  unfold iblk2
  rw [View.read_apply]
  show V c main_v28 _ = V c main_v28 _
  refine congrArg (V c main_v28) (funext fun a => Fin.ext ?_)
  match a with
  | ⟨0, _⟩ => show win2_0.index t (0 : Fin 2) * 10000 + 1 * r.val = t.val * 10000 + r.val; rw [e0]; omega
  | ⟨1, _⟩ => show win2_0.index t (1 : Fin 2) * 128 + 1 * k.val = k.val; rw [e1]; omega

theorem wts2_blk (c : Dev nD) (t : Fin cfg2.N) (k : Fin 128) (q : Fin 64) :
    (iblk2 V c 1 t : Vec Ideal S128x64 .f32) (ix2 k q) = wts2 V c (ix2 k q) := by
  obtain ⟨-, -, e0, e1, -⟩ := where2 t
  unfold iblk2
  rw [View.read_apply]
  show V c main_arg5 _ = V c main_arg5 _
  refine congrArg (V c main_arg5) (funext fun a => Fin.ext ?_)
  match a with
  | ⟨0, _⟩ => show win2_1.index t (0 : Fin 2) * 128 + 1 * k.val = k.val; rw [e0]; omega
  | ⟨1, _⟩ => show win2_1.index t (1 : Fin 2) * 64 + 1 * q.val = q.val; rw [e1]; omega

theorem scl2_blk (c : Dev nD) (t : Fin cfg2.N) (r : Fin 10000) :
    (iblk2 V c 2 t : Vec Ideal S10000x1 .f32) (ix2 r 0) = scl2 V c (ix2 ⟨t.val * 10000 + r.val, rowOf2 t r⟩ 0) := by
  obtain ⟨-, -, -, -, e0, e1, -⟩ := where2 t
  unfold iblk2
  rw [View.read_apply]
  show V c main_v15 _ = V c main_v15 _
  refine congrArg (V c main_v15) (funext fun a => Fin.ext ?_)
  match a with
  | ⟨0, _⟩ => show win2_2.index t (0 : Fin 2) * 10000 + 1 * r.val = t.val * 10000 + r.val; rw [e0]; omega
  | ⟨1, _⟩ => show win2_2.index t (1 : Fin 2) * 1 + 1 * 0 = 0; rw [e1]

theorem stored2_at (c : Dev nD) (t : Fin cfg2.N) (r : Fin 10000) (q : Fin 64) :
    k2_pay1 (F := Ideal) (iblk2 V c 0 t) (iblk2 V c 1 t) (iblk2 V c 2 t) (ix2 r q)
      = prod2 V c ⟨t.val * 10000 + r.val, rowOf2 t r⟩ q := by
  refine (pay2_at (iblk2 V c 0 t) (iblk2 V c 1 t) (iblk2 V c 2 t) r q).trans ?_
  unfold prod2
  exact congrArg₂ (· * ·)
    (Finset.sum_congr rfl fun k _ => congrArg₂ (· * ·) (hid2_blk V c t r k) (wts2_blk V c t k q))
    (scl2_blk V c t r)

theorem stored2 (c : Dev nD) (t : Fin cfg2.N) :
    (k2_pay1 (F := Ideal) (iblk2 V c 0 t) (iblk2 V c 1 t) (iblk2 V c 2 t) : S10000x64.Idx → EReal)
      = fun j => prod2 V c ⟨t.val * 10000 + (j 0).val, rowOf2 t (j 0)⟩ (j 1) := by
  funext j
  exact (congrArg (k2_pay1 (F := Ideal) (iblk2 V c 0 t) (iblk2 V c 1 t) (iblk2 V c 2 t)) (eq_ix2 j)).trans
    (stored2_at V c t (j 0) (j 1))

theorem wrote2 (c : Dev nD) (t : Fin cfg2.N) :
    (dat2 (F := Ideal) V c).flushed 3 t = ((cfg2.win 3).blk t).view.read (Elt Ideal) (prodArr2 V c) := by
  obtain ⟨-, -, -, -, -, -, e0, e1⟩ := where2 t
  show (cfg2.win 3).cut (grid2.coords t) ((dat2 V c).after 3 t) = _
  rw [after2_3]
  unfold out2_3
  rw [View.canon_unit_zero noOffset2]
  simp only [View.ld_unit_zero (S := S10000x128) noOffset2, View.ld_unit_zero (S := S128x64) noOffset2, View.ld_unit_zero (S := S10000x1) noOffset2]
  rw [stored2]
  funext j
  show prod2 V c ⟨t.val * 10000 + (j 0).val, rowOf2 t (j 0)⟩ (j 1)
      = prod2 V c ((((cfg2.win 3).blk t).view.emb j) 0) ((((cfg2.win 3).blk t).view.emb j) 1)
  refine congrArg₂ (prod2 V c) (Fin.ext ?_) (Fin.ext ?_)
  · show t.val * 10000 + (j 0).val = win2_3.index t (0 : Fin 2) * 10000 + 1 * (j 0).val; rw [e0]; omega
  · show (j 1).val = win2_3.index t (1 : Fin 2) * 64 + 1 * (j 1).val; rw [e1]; omega

theorem owned2 (i : S100000x64.Idx) :
    ∃ t : Fin cfg2.N, (cfg2.win 3).flush t = true ∧ i ∈ ((cfg2.win 3).blk t).view.set := by
  have h0 : (i 0).val < 100000 := (i 0).isLt
  have h1 : (i 1).val < 64 := (i 1).isLt
  have hN : cfg2.N = 10 := N_2
  let t : Fin cfg2.N := ⟨(i 0).val / 10000, by rw [hN]; omega⟩
  obtain ⟨-, -, -, -, -, -, e0, e1⟩ := where2 t
  have et : t.val = (i 0).val / 10000 := rfl
  refine ⟨t, flush2_3 t, ?_⟩
  show i ∈ ((View.whole main_v29).slice (win2_3.rect t)).set
  rw [View.set_slice_whole, Rect.mem_set_unit]
  intro a
  match a with
  | ⟨0, _⟩ =>
    show win2_3.index t (0 : Fin 2) * 10000 ≤ (i 0).val ∧ (i 0).val < win2_3.index t (0 : Fin 2) * 10000 + 10000
    rw [e0, et]; omega
  | ⟨1, _⟩ =>
    show win2_3.index t (1 : Fin 2) * 64 ≤ (i 1).val ∧ (i 1).val < win2_3.index t (1 : Fin 2) * 64 + 64
    rw [e1]; omega

theorem finalArr2 (c : Dev nD) : (dat2 (F := Ideal) V c).arrAt 3 cfg2.N = prodArr2 V c :=
  (dat2 (F := Ideal) V c).arrAt_eq_of_cover 3 (prodArr2 V c) (fun t _ => wrote2 V c t) owned2

theorem final2 (c : Dev nD) (n : Fin 100000) (q : Fin 64) :
    (dat2 (F := Ideal) V c).arrAt 3 cfg2.N (ix2 n q)
      = (∑ k : Fin 128, hid2 V c (ix2 n k) * wts2 V c (ix2 k q)) * scl2 V c (ix2 n 0) := by
  rw [finalArr2]
  rfl

end Cert.KernelIdeal.Hand
end
-- ==== Proof.KI.Val3.lean ====
import proofs.«417436_j16896401342873_2_alg».proof.Proof.KI.R3
import proofs.«417436_j16896401342873_2_alg».proof.Proof.Spec
import Idealize.ShloMosaic.Lib.Pipeline.Value
import Idealize.ShloMosaic.Lib.ValueIdx
import Idealize.ShloMosaic.Lib.Tactic

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

theorem zeroOff3 : (![0, 0] : Fin 2 → Nat) = fun _ => 0 := funext fun a => by fin_cases a <;> rfl

theorem scaleBias_apply (x0 : Vec Ideal S10000x64 .f32) (x1 : Vec Ideal S10000x1 .f32) (x2 : Vec Ideal S1x64 .f32)
    (r : Fin 10000) (j : Fin 64) :
    k3_pay1 x0 x1 x2 (ix2 r j) = x0 (ix2 r j) * x1 (ix2 r 0) + x2 (ix2 0 j) := by
  unfold k3_pay1
  simp only [shapeCast_self]

  have hcol : broadcastTo S10000x64 x1 broadcasts_S10000x1_S10000x64 (ix2 r j) = x1 (ix2 r 0) :=
    broadcastTo_apply x1 broadcasts_S10000x1_S10000x64 (ix2 r j) (ix2 r 0) (fun a => by
      match a with
      | ⟨0, _⟩ => rfl
      | ⟨1, _⟩ => rfl)

  have hrow : broadcastTo S10000x64 x2 broadcasts_S1x64_S10000x64 (ix2 r j) = x2 (ix2 0 j) :=
    broadcastTo_apply x2 broadcasts_S1x64_S10000x64 (ix2 r j) (ix2 0 j) (fun a => by
      match a with
      | ⟨0, _⟩ => rfl
      | ⟨1, _⟩ => rfl)
  show x0 (ix2 r j) * broadcastTo S10000x64 x1 broadcasts_S10000x1_S10000x64 (ix2 r j)
      + broadcastTo S10000x64 x2 broadcasts_S1x64_S10000x64 (ix2 r j) = _
  rw [hcol, hrow]

abbrev G3 (a0 : S100000x64.Idx → EReal) (a1 : S100000x1.Idx → EReal) (a2 : S1x64.Idx → EReal) : S100000x64.Idx → EReal :=
  fun i => a0 i * a1 (ix2 (i 0) 0) + a2 (ix2 0 (i 1))

theorem entry3 (x0 : Vec Ideal S10000x64 .f32) (x1 : Vec Ideal S10000x1 .f32) (x2 : Vec Ideal S1x64 .f32)
    (a0 : S100000x64.Idx → EReal) (a1 : S100000x1.Idx → EReal) (a2 : S1x64.Idx → EReal)
    (y : S10000x64.Idx) (i : S100000x64.Idx)
    (h0 : x0 (ix2 (y 0) (y 1)) = a0 i) (h1 : x1 (ix2 (y 0) 0) = a1 (ix2 (i 0) 0)) (h2 : x2 (ix2 0 (y 1)) = a2 (ix2 0 (i 1))) :
    k3_pay1 x0 x1 x2 y = G3 a0 a1 a2 i := by
  refine (congrArg (k3_pay1 x0 x1 x2) (eq_ix2 y)).trans ?_
  refine (scaleBias_apply x0 x1 x2 (y 0) (y 1)).trans ?_
  rw [h0, h1, h2]

theorem blockIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem flushed3_eq (c : Dev nD) (t : Fin cfg3.N) :
    (dat3 V c).flushed 3 t = ((cfg3.win 3).blk t).view.read (Elt Ideal) (G3 (V c main_v39) (V c main_v15) (V c main_v40)) := by
  show (cfg3.win 3).cut (grid3.coords t) ((dat3 V c).after 3 t) = _
  rw [after3_3]
  unfold out3_3
  rw [View.canon_unit_zero zeroOff3]
  simp only [View.ld_unit_zero (S := S10000x64) zeroOff3, View.ld_unit_zero (S := S10000x1) zeroOff3, View.ld_unit_zero (S := S1x64) zeroOff3]
  obtain ⟨e00, e01, e10, e11, e20, e21, e30, e31⟩ := blockIdx3 t
  funext y
  refine entry3 (iblk3 V c 0 t) (iblk3 V c 1 t) (iblk3 V c 2 t) (V c main_v39) (V c main_v15) (V c main_v40) y
    (((cfg3.win 3).blk t).view.emb y) ?_ ?_ ?_
  ·
    show V c main_v39 (((cfg3.win 0).blk t).view.emb (ix2 (y 0) (y 1))) = V c main_v39 (((cfg3.win 3).blk t).view.emb y)
    refine congrArg (V c main_v39) (funext fun a => Fin.ext ?_)
    match a with
    | ⟨0, _⟩ => show win3_0.index t (0 : Fin 2) * 10000 + 1 * (y 0).val = win3_3.index t (0 : Fin 2) * 10000 + 1 * (y 0).val; omega
    | ⟨1, _⟩ => show win3_0.index t (1 : Fin 2) * 64 + 1 * (y 1).val = win3_3.index t (1 : Fin 2) * 64 + 1 * (y 1).val; omega
  ·
    show V c main_v15 (((cfg3.win 1).blk t).view.emb (ix2 (y 0) 0)) = V c main_v15 (ix2 ((((cfg3.win 3).blk t).view.emb y) 0) 0)
    refine congrArg (V c main_v15) (funext fun a => Fin.ext ?_)
    match a with
    | ⟨0, _⟩ => show win3_1.index t (0 : Fin 2) * 10000 + 1 * (y 0).val = win3_3.index t (0 : Fin 2) * 10000 + 1 * (y 0).val; omega
    | ⟨1, _⟩ => show win3_1.index t (1 : Fin 2) * 1 + 1 * 0 = 0; omega
  ·
    show V c main_v40 (((cfg3.win 2).blk t).view.emb (ix2 0 (y 1))) = V c main_v40 (ix2 0 ((((cfg3.win 3).blk t).view.emb y) 1))
    refine congrArg (V c main_v40) (funext fun a => Fin.ext ?_)
    match a with
    | ⟨0, _⟩ => show win3_2.index t (0 : Fin 2) * 1 + 1 * 0 = 0; omega
    | ⟨1, _⟩ => show win3_2.index t (1 : Fin 2) * 64 + 1 * (y 1).val = win3_3.index t (1 : Fin 2) * 64 + 1 * (y 1).val; omega

theorem mem_blk3 (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v41).slice (win3_3.rect t)).set ↔ _
  rw [View.set_slice_whole, Rect.mem_set_unit]
  exact Iff.rfl

theorem covered3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 10 := N_3
  have hlt : (i 0).val / 10000 < cfg3.N := by rw [hN]; omega
  obtain ⟨-, -, -, -, -, -, e30, e31⟩ := blockIdx3 ⟨(i 0).val / 10000, hlt⟩
  have e30' : win3_3.index ⟨(i 0).val / 10000, hlt⟩ (0 : Fin 2) = (i 0).val / 10000 := e30
  refine ⟨⟨(i 0).val / 10000, hlt⟩, flush3_3 _, ?_⟩
  rw [mem_blk3]
  intro a
  match a with
  | ⟨0, _⟩ =>
    show win3_3.index ⟨(i 0).val / 10000, hlt⟩ (0 : Fin 2) * 10000 ≤ (i 0).val ∧ (i 0).val < win3_3.index ⟨(i 0).val / 10000, hlt⟩ (0 : Fin 2) * 10000 + 10000
    omega
  | ⟨1, _⟩ =>
    show win3_3.index ⟨(i 0).val / 10000, hlt⟩ (1 : Fin 2) * 64 ≤ (i 1).val ∧ (i 1).val < win3_3.index ⟨(i 0).val / 10000, hlt⟩ (1 : Fin 2) * 64 + 64
    omega

theorem finalFun3 (c : Dev nD) :
    (dat3 (F := Ideal) V c).arrAt 3 cfg3.N = G3 (V c main_v39) (V c main_v15) (V c main_v40) :=
  (dat3 V c).arrAt_eq_of_cover 3 (G3 (V c main_v39) (V c main_v15) (V c main_v40)) (fun t _ => flushed3_eq V c t) covered3

abbrev aggArr3 (c : Dev nD) : S100000x64.Idx → EReal := V c main_v39
abbrev dinvArr3 (c : Dev nD) : S100000x1.Idx → EReal := V c main_v15
abbrev biasArr3 (c : Dev nD) : S1x64.Idx → EReal := V c main_v40

theorem final3 (c : Dev nD) (n : Fin 100000) (q : Fin 64) :
    (dat3 (F := Ideal) V c).arrAt 3 cfg3.N (ix2 n q) = aggArr3 V c (ix2 n q) * dinvArr3 V c (ix2 n 0) + biasArr3 V c (ix2 0 q) :=
  congrFun (finalFun3 V c) (ix2 n q)

end Cert.KernelIdeal.Hand

end
-- ==== Proof.KI.PoolPay.lean ====
import proofs.«417436_j16896401342873_2_alg».proof.Proof.Gen.KernelIdeal.Skeleton
import proofs.«417436_j16896401342873_2_alg».proof.Proof.Spec
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal Cert.KernelIdeal.Gen
open scoped BigOperators

theorem pay1_apply (g : Fin 256) (f : Fin 64) : k4_pay1 (F := Ideal) (ix2 g f) = Cert.Spec.zeroF := by
  unfold k4_pay1
  rw [shapeCast_self]
  rfl

theorem pay2_apply (g : Fin 256) : k4_pay2 (F := Ideal) (ix2 g 0) = Cert.Spec.zeroF := by
  unfold k4_pay2
  rw [shapeCast_self]
  rfl

theorem bit_word_real (w v : BitVec 32) :
    (((((BitVec.ofBool (w == v)).setWidth 32).toInt : ℤ) : ℝ) : EReal) = if w = v then 1 else 0 := by
  by_cases h : w = v
  · subst h; simp
  · have : (w == v) = false := by simpa using h
    rw [this, if_neg h]; simp

theorem bcast_col_apply (b : Vec Ideal S10000x1 .i32) (h : S10000x1.Broadcasts S10000x256) (i : Fin 10000) (g : Fin 256) :
    broadcastTo S10000x256 b h (ix2 i g) = b (ix2 i 0) :=
  broadcastTo_apply b h (ix2 i g) (ix2 i 0) (fun a => match a with
    | ⟨0, _⟩ => by show i.val = if (10000 : Nat) = 1 then 0 else i.val; rw [if_neg (by decide)]
    | ⟨1, _⟩ => by show (0 : Nat) = if (1 : Nat) = 1 then 0 else g.val; rw [if_pos rfl])

theorem pay3_apply (b : Vec Ideal S10000x1 .i32) (i : Fin 10000) (g : Fin 256) :
    k4_pay3 (F := Ideal) b (ix2 i g) = Cert.Spec.hit (b (ix2 i 0)) g := by
  unfold k4_pay3
  rw [shapeCast_self]
  show (((((BitVec.ofBool (_ == _)).setWidth 32).toInt : ℤ) : ℝ) : EReal) = _
  rw [bcast_col_apply, iota_single_apply, bit_word_real]
  rfl

theorem lhs_pool_0 (j : S256x64.Idx) (q : dot_S256x10000_S10000x64_S256x64_1_0_0_1_n_n.contr.Idx) :
    (dot_S256x10000_S10000x64_S256x64_1_0_0_1_n_n.lhsIdx j q 0).val = (j 0).val := by
  unfold DotDims.lhsIdx
  rw [dif_neg (show ¬(0 : Fin S256x10000.rank) ∈ dot_S256x10000_S10000x64_S256x64_1_0_0_1_n_n.lhsBatch by decide), dif_pos (show (0 : Fin S256x10000.rank) ∈ dot_S256x10000_S10000x64_S256x64_1_0_0_1_n_n.lhsNonContracting by decide)]
  rfl
theorem lhs_pool_1 (j : S256x64.Idx) (q : dot_S256x10000_S10000x64_S256x64_1_0_0_1_n_n.contr.Idx) :
    (dot_S256x10000_S10000x64_S256x64_1_0_0_1_n_n.lhsIdx j q 1).val = (q ⟨0, by decide⟩).val :=
  dot_S256x10000_S10000x64_S256x64_1_0_0_1_n_n.lhsIdx_val_of_single rfl j q
theorem rhs_pool_0 (j : S256x64.Idx) (q : dot_S256x10000_S10000x64_S256x64_1_0_0_1_n_n.contr.Idx) :
    (dot_S256x10000_S10000x64_S256x64_1_0_0_1_n_n.rhsIdx j q 0).val = (q ⟨0, by decide⟩).val :=
  dot_S256x10000_S10000x64_S256x64_1_0_0_1_n_n.rhsIdx_val_of_single rfl j q
theorem rhs_pool_1 (j : S256x64.Idx) (q : dot_S256x10000_S10000x64_S256x64_1_0_0_1_n_n.contr.Idx) :
    (dot_S256x10000_S10000x64_S256x64_1_0_0_1_n_n.rhsIdx j q 1).val = (j 1).val := by
  unfold DotDims.rhsIdx
  rw [dif_neg (show ¬(1 : Fin S10000x64.rank) ∈ dot_S256x10000_S10000x64_S256x64_1_0_0_1_n_n.rhsBatch by decide), dif_pos (show (1 : Fin S10000x64.rank) ∈ dot_S256x10000_S10000x64_S256x64_1_0_0_1_n_n.rhsNonContracting by decide)]
  rfl

theorem pool_matmul_apply (L : FVec Ideal S256x10000 .f32) (R : FVec Ideal S10000x64 .f32) (g : Fin 256) (f : Fin 64) :
    matmul dot_S256x10000_S10000x64_S256x64_1_0_0_1_n_n none L R (constant (F := Ideal) S256x64 .f32 0x00000000#32) (ix2 g f)
      = ∑ i : Fin 10000, L (ix2 g i) * R (ix2 i f) := by
  simp only [matmul]
  rw [Ideal.matmul_constant_zero_apply, ← Equiv.sum_comp (ValueIdx.contrEquiv1 dot_S256x10000_S10000x64_S256x64_1_0_0_1_n_n 10000 rfl rfl).symm]
  refine Finset.sum_congr rfl fun k _ => ?_
  have hk := ValueIdx.contrEquiv1_symm_val dot_S256x10000_S10000x64_S256x64_1_0_0_1_n_n 10000 rfl rfl k
  have el : dot_S256x10000_S10000x64_S256x64_1_0_0_1_n_n.lhsIdx (ix2 g f) ((ValueIdx.contrEquiv1 dot_S256x10000_S10000x64_S256x64_1_0_0_1_n_n 10000 rfl rfl).symm k) = ix2 g k := funext fun a => Fin.ext (by
    match a with
    | ⟨0, _⟩ => exact lhs_pool_0 _ _
    | ⟨1, _⟩ => exact (lhs_pool_1 _ _).trans hk)
  have er : dot_S256x10000_S10000x64_S256x64_1_0_0_1_n_n.rhsIdx (ix2 g f) ((ValueIdx.contrEquiv1 dot_S256x10000_S10000x64_S256x64_1_0_0_1_n_n 10000 rfl rfl).symm k) = ix2 k f := funext fun a => Fin.ext (by
    match a with
    | ⟨0, _⟩ => exact (rhs_pool_0 _ _).trans hk
    | ⟨1, _⟩ => exact rhs_pool_1 _ _)
  rw [el, er]

theorem pay4_apply (b : Vec Ideal S10000x1 .i32) (acc : Vec Ideal S256x64 .f32) (x : Vec Ideal S10000x64 .f32) (g : Fin 256) (f : Fin 64) :
    k4_pay4 (F := Ideal) b acc x (ix2 g f) = acc (ix2 g f) + ∑ i : Fin 10000, Cert.Spec.hit (b (ix2 i 0)) g * x (ix2 i f) := by
  unfold k4_pay4
  rw [shapeCast_self, shapeCast_self]
  show acc (ix2 g f) + _ = _
  refine congrArg (acc (ix2 g f) + ·) ?_
  refine (pool_matmul_apply _ _ g f).trans ?_
  refine Finset.sum_congr rfl fun i _ => ?_
  rw [transpose_ix2_apply, pay3_apply]

theorem pool_colsum_apply (M : FVec Ideal S10000x256 .f32) (h : S10000x256.Reduces [0] S256) (hφ : FKind.Formats .f32)
    (hacc : (0x00000000#32 : BitVec 32) = FKind.add.neutral .f32 hφ) (g : Fin 256) :
    multiReduction .add [0] S256 M 0x00000000#32 h hφ hacc (ix1 g) = ∑ i : Fin 10000, M (ix2 i g) := by
  refine (Ideal.multiReduction_add_single M 0x00000000#32 h hφ hacc (ix1 g)).trans ?_
  refine Finset.sum_congr rfl fun i _ => congrArg M ?_
  funext a; refine Fin.ext ?_
  match a with
  | ⟨0, _⟩ => rfl
  | ⟨1, _⟩ => rfl

theorem pay5_apply (b : Vec Ideal S10000x1 .i32) (cnt : Vec Ideal S256x1 .f32) (g : Fin 256) :
    k4_pay5 (F := Ideal) b cnt (ix2 g 0) = cnt (ix2 g 0) + ∑ i : Fin 10000, Cert.Spec.hit (b (ix2 i 0)) g := by
  unfold k4_pay5
  rw [shapeCast_self]
  show cnt (ix2 g 0) + _ = _
  refine congrArg (cnt (ix2 g 0) + ·) ?_
  refine (transpose_ix2_apply _ _ g (0 : Fin 1)).trans ?_
  refine (shapeCast_a_1a_apply _ _ (0 : Fin 1) g).trans ?_
  refine (pool_colsum_apply _ _ _ _ g).trans ?_
  exact Finset.sum_congr rfl fun i _ => pay3_apply b i g

theorem bcast_row_apply (v : Vec Ideal S256x1 .f32) (h : S256x1.Broadcasts S256x64) (g : Fin 256) (f : Fin 64) :
    broadcastTo S256x64 v h (ix2 g f) = v (ix2 g 0) :=
  broadcastTo_apply v h (ix2 g f) (ix2 g 0) (fun a => match a with
    | ⟨0, _⟩ => by show g.val = if (256 : Nat) = 1 then 0 else g.val; rw [if_neg (by decide)]
    | ⟨1, _⟩ => by show (0 : Nat) = if (1 : Nat) = 1 then 0 else f.val; rw [if_pos rfl])

theorem pay6_apply (cnt : Vec Ideal S256x1 .f32) (acc : Vec Ideal S256x64 .f32) (g : Fin 256) (f : Fin 64) :
    k4_pay6 (F := Ideal) cnt acc (ix2 g f) = Ideal.div (acc (ix2 g f)) (max (cnt (ix2 g 0)) Cert.Spec.oneF) := by
  unfold k4_pay6
  show Ideal.div (acc (ix2 g f)) _ = _
  refine congrArg (Ideal.div (acc (ix2 g f))) ?_
  refine (bcast_row_apply _ _ g f).trans ?_
  rfl

def poolAcc (xs : Fin 10 → Vec Ideal S10000x64 .f32) (bs : Fin 10 → Vec Ideal S10000x1 .i32) :
    (n : ℕ) → n < 10 → Vec Ideal S256x64 .f32 × Vec Ideal S256x1 .f32
  | 0, hn => (k4_pay4 (bs ⟨0, hn⟩) (k4_pay1 (F := Ideal)) (xs ⟨0, hn⟩), k4_pay5 (bs ⟨0, hn⟩) (k4_pay2 (F := Ideal)))
  | n + 1, hn => (k4_pay4 (bs ⟨n + 1, hn⟩) (poolAcc xs bs n (Nat.lt_of_succ_lt hn)).1 (xs ⟨n + 1, hn⟩),
      k4_pay5 (bs ⟨n + 1, hn⟩) (poolAcc xs bs n (Nat.lt_of_succ_lt hn)).2)

theorem poolAcc_fst (xs : Fin 10 → Vec Ideal S10000x64 .f32) (bs : Fin 10 → Vec Ideal S10000x1 .i32) (g : Fin 256) (f : Fin 64) :
    ∀ (n : ℕ) (hn : n < 10), (poolAcc xs bs n hn).1 (ix2 g f)
      = ∑ t : Fin (n + 1), ∑ i : Fin 10000,
          Cert.Spec.hit (bs ⟨t.val, by have := t.isLt; omega⟩ (ix2 i 0)) g * xs ⟨t.val, by have := t.isLt; omega⟩ (ix2 i f) := by
  intro n
  induction n with
  | zero =>
    intro hn
    show (k4_pay4 (bs ⟨0, hn⟩) (k4_pay1 (F := Ideal)) (xs ⟨0, hn⟩)) (ix2 g f) = _
    rw [pay4_apply, pay1_apply, show Cert.Spec.zeroF = 0 from Ideal.ofBits_zero_f32, zero_add, Fin.sum_univ_one]
    rfl
  | succ n ih =>
    intro hn
    show (k4_pay4 (bs ⟨n + 1, hn⟩) (poolAcc xs bs n (Nat.lt_of_succ_lt hn)).1 (xs ⟨n + 1, hn⟩)) (ix2 g f) = _
    rw [pay4_apply, ih]
    refine Eq.trans ?_ (Fin.sum_univ_castSucc _).symm
    rfl

theorem poolAcc_snd (xs : Fin 10 → Vec Ideal S10000x64 .f32) (bs : Fin 10 → Vec Ideal S10000x1 .i32) (g : Fin 256) :
    ∀ (n : ℕ) (hn : n < 10), (poolAcc xs bs n hn).2 (ix2 g 0)
      = ∑ t : Fin (n + 1), ∑ i : Fin 10000, Cert.Spec.hit (bs ⟨t.val, by have := t.isLt; omega⟩ (ix2 i 0)) g := by
  intro n
  induction n with
  | zero =>
    intro hn
    show (k4_pay5 (bs ⟨0, hn⟩) (k4_pay2 (F := Ideal))) (ix2 g 0) = _
    rw [pay5_apply, pay2_apply, show Cert.Spec.zeroF = 0 from Ideal.ofBits_zero_f32, zero_add, Fin.sum_univ_one]
    rfl
  | succ n ih =>
    intro hn
    show (k4_pay5 (bs ⟨n + 1, hn⟩) (poolAcc xs bs n (Nat.lt_of_succ_lt hn)).2) (ix2 g 0) = _
    rw [pay5_apply, ih]
    refine Eq.trans ?_ (Fin.sum_univ_castSucc _).symm
    rfl

def blockRow (t : Fin 10) (i : Fin 10000) : Fin 100000 := ⟨10000 * t.val + i.val, by have := t.isLt; have := i.isLt; omega⟩

def blockEquiv : Fin 10 × Fin 10000 ≃ Fin 100000 where
  toFun p := blockRow p.1 p.2
  invFun n := (⟨n.val / 10000, by have := n.isLt; omega⟩, ⟨n.val % 10000, Nat.mod_lt _ (by decide)⟩)
  left_inv p := by
    have h1 := p.1.isLt; have h2 := p.2.isLt
    refine Prod.ext (Fin.ext ?_) (Fin.ext ?_)
    · show (10000 * p.1.val + p.2.val) / 10000 = p.1.val; omega
    · show (10000 * p.1.val + p.2.val) % 10000 = p.2.val; omega
  right_inv n := by
    refine Fin.ext ?_
    show 10000 * (n.val / 10000) + n.val % 10000 = n.val; omega

theorem sum_blockRow (G : Fin 100000 → EReal) : ∑ n : Fin 100000, G n = ∑ t : Fin 10, ∑ i : Fin 10000, G (blockRow t i) := by
  rw [← Equiv.sum_comp blockEquiv G, Fintype.sum_prod_type]
  rfl

section Whole
variable (xs : Fin 10 → Vec Ideal S10000x64 .f32) (bs : Fin 10 → Vec Ideal S10000x1 .i32)
  (batch : Fin 100000 → BitVec 32) (h : Fin 100000 → Fin 64 → EReal)
  (hx : ∀ t i f, xs t (ix2 i f) = h (blockRow t i) f) (hb : ∀ t i, bs t (ix2 i 0) = batch (blockRow t i))
include hx hb

theorem poolAcc_fst_last (g : Fin 256) (f : Fin 64) :
    (poolAcc xs bs 9 (by decide)).1 (ix2 g f) = ∑ n : Fin 100000, Cert.Spec.hit (batch n) g * h n f := by
  rw [poolAcc_fst, sum_blockRow]
  refine Finset.sum_congr rfl fun t _ => Finset.sum_congr rfl fun i _ => ?_
  rw [← hx, ← hb]

omit hx in

theorem poolAcc_snd_last (g : Fin 256) :
    (poolAcc xs bs 9 (by decide)).2 (ix2 g 0) = ∑ n : Fin 100000, Cert.Spec.hit (batch n) g := by
  rw [poolAcc_snd, sum_blockRow]
  refine Finset.sum_congr rfl fun t _ => Finset.sum_congr rfl fun i _ => ?_
  rw [← hb]

theorem pool_of_blocks (g : Fin 256) (f : Fin 64) :
    k4_pay6 (F := Ideal) (poolAcc xs bs 9 (by decide)).2 (poolAcc xs bs 9 (by decide)).1 (ix2 g f) = Cert.Spec.poolK batch h g f := by
  rw [pay6_apply, poolAcc_fst_last xs bs batch h hx hb, poolAcc_snd_last xs bs batch hb]
  rfl

end Whole

end Cert.KernelIdeal.Hand

end
-- ==== Proof.KI.Val4.lean ====
import proofs.«417436_j16896401342873_2_alg».proof.Proof.KI.R4
import proofs.«417436_j16896401342873_2_alg».proof.Proof.KI.PoolPay
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

variable (V : (c : Dev nD) → (b : Ref sig .tc) → Buf (Elt Ideal) ((c : Thread nD τ).loc b))

def xblk (c : Dev nD) (t : Fin 10) : Vec Ideal S10000x64 .f32 := iblk4 V c 0 ⟨t.val, by rw [show cfg4.N = 10 from N_4]; exact t.isLt⟩
def bblk (c : Dev nD) (t : Fin 10) : Vec Ideal S10000x1 .i32 := iblk4 V c 1 ⟨t.val, by rw [show cfg4.N = 10 from N_4]; exact t.isLt⟩

theorem scrAt_eq_poolAcc (c : Dev nD) : ∀ (n : ℕ) (hn : n < cfg4.N),
    scrAt V c n hn = poolAcc (xblk V c) (bblk V c) n (by rw [← show cfg4.N = 10 from N_4]; exact hn)
  | 0, hn => rfl
  | n + 1, hn => by
    rw [scrAt_succ, scrAt_eq_poolAcc c n (Nat.lt_of_succ_lt hn)]
    rfl

theorem idx4_0 : ∀ t : Fin cfg4.N, win4_0.index t 0 = t.val ∧ win4_0.index t 1 = 0 :=
  (by decide +kernel : ∀ t : Fin grid4.N, win4_0.index t 0 = t.val ∧ win4_0.index t 1 = 0)
theorem idx4_1 : ∀ t : Fin cfg4.N, win4_1.index t 0 = t.val ∧ win4_1.index t 1 = 0 :=
  (by decide +kernel : ∀ t : Fin grid4.N, win4_1.index t 0 = t.val ∧ win4_1.index t 1 = 0)

theorem xblk_apply (c : Dev nD) (t : Fin 10) (i : Fin 10000) (f : Fin 64) :
    xblk V c t (ix2 i f) = V c main_v41 (ix2 (blockRow t i) f) := by
  unfold xblk iblk4
  rw [View.read_apply]
  show V c main_v41 _ = V c main_v41 _
  congr 1
  funext a
  apply Fin.ext
  match a with
  | ⟨0, _⟩ =>
    show win4_0.index _ 0 * 10000 + 1 * i.val = 10000 * t.val + i.val
    rw [(idx4_0 _).1]
    show t.val * 10000 + 1 * i.val = 10000 * t.val + i.val
    omega
  | ⟨1, _⟩ =>
    show win4_0.index _ 1 * 64 + 1 * f.val = f.val
    rw [(idx4_0 _).2]; omega

theorem bblk_apply (c : Dev nD) (t : Fin 10) (i : Fin 10000) :
    bblk V c t (ix2 i 0) = V c main_v42 (ix2 (blockRow t i) 0) := by
  unfold bblk iblk4
  rw [View.read_apply]
  show V c main_v42 _ = V c main_v42 _
  congr 1
  funext a
  apply Fin.ext
  match a with
  | ⟨0, _⟩ =>
    show win4_1.index _ 0 * 10000 + 1 * i.val = 10000 * t.val + i.val
    rw [(idx4_1 _).1]
    show t.val * 10000 + 1 * i.val = 10000 * t.val + i.val
    omega
  | ⟨1, _⟩ =>
    show win4_1.index _ 1 * 1 + 1 * 0 = 0
    rw [(idx4_1 _).2]

theorem flushed4_2 (c : Dev nD) (t : Fin cfg4.N) (hf : (cfg4.win 2).flush t = true) :
    (dat4 V c).flushed 2 t = ((cfg4.win 2).blk t).view.read (Elt Ideal) (pooled4 V c) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2]
  have hz' : (fun a => win4_2.index t4_9 a * main_v43.ty.shape.size a) = fun _ => 0 := funext fun a => by fin_cases a <;> decide
  exact (Memref.read_access_unit_zero (Elt Ideal) main_v43 hz' (fun a => by rw [congrFun hz' a]; simp) (pooled4 V c)).symm

theorem arr4_2 (c : Dev nD) : (dat4 V c).arrAt 2 cfg4.N = pooled4 V c :=
  (dat4 V c).arrAt_eq_of_cover 2 (pooled4 V c) (flushed4_2 V c) fun i =>
    ⟨t4_9, (flush4_2 t4_9).mpr rfl, by
      show i ∈ ((View.whole main_v43).slice (win4_2.rect t4_9)).set
      rw [View.set_slice_whole, Rect.mem_set_unit]
      intro a
      have h0 : (i 0 : Nat) < 256 := (i 0).isLt
      have h1 : (i 1 : Nat) < 64 := (i 1).isLt
      match a with
      | ⟨0, _⟩ =>
        show win4_2.index t4_9 0 * win4_2.size 0 ≤ (i 0 : Nat) ∧ (i 0 : Nat) < win4_2.index t4_9 0 * win4_2.size 0 + win4_2.xsize (grid4.coords t4_9) 0
        rw [show win4_2.index t4_9 0 * win4_2.size 0 = 0 from by decide +kernel, show win4_2.xsize (grid4.coords t4_9) 0 = 256 from by decide +kernel]; omega
      | ⟨1, _⟩ =>
        show win4_2.index t4_9 1 * win4_2.size 1 ≤ (i 1 : Nat) ∧ (i 1 : Nat) < win4_2.index t4_9 1 * win4_2.size 1 + win4_2.xsize (grid4.coords t4_9) 1
        rw [show win4_2.index t4_9 1 * win4_2.size 1 = 0 from by decide +kernel, show win4_2.xsize (grid4.coords t4_9) 1 = 64 from by decide +kernel]; omega⟩

theorem final4 (c : Dev nD) (g : Fin 256) (f : Fin 64) :
    (dat4 (F := Ideal) V c).arrAt 2 cfg4.N (ix2 g f)
      = Cert.Spec.poolK (fun n => V c main_v42 (ix2 n 0)) (fun n f => V c main_v41 (ix2 n f)) g f := by
  rw [arr4_2]
  unfold pooled4
  rw [scrAt_eq_poolAcc]
  exact pool_of_blocks (xblk V c) (bblk V c) (fun n => V c main_v42 (ix2 n 0)) (fun n f => V c main_v41 (ix2 n f))
    (fun t i f => xblk_apply V c t i f) (fun t i => bblk_apply V c t i) g f

end Cert.KernelIdeal.Hand

end
-- ==== Proof.LibVecGather.lean ====
import Idealize.ShloMosaic.PureOps.Ideal
import Idealize.ShloMosaic.Lib.ValueIdx

noncomputable section

namespace Idealize.ShloMosaic.RowOps

open Idealize.ShloMosaic Idealize.ShloMosaic.ValueIdx

abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 (⟨min (idx (ix2 e (0 : Fin 1))).toInt.toNat (N - 1), by omega⟩ : Fin N)) := by
  unfold Host.gather
  congr 1
  funext a
  refine Fin.ext ?_
  match a with
  | ⟨0, _⟩ =>
    show (vecGather N E wf).start (ix1 e) idx 0 + (vecGather N E wf).batchCoord (ix1 e) 0
      + (vecGather N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather N E wf).startIndexMap from List.mem_singleton.mpr rfl)]
    have hsi : (vecGather N E wf).siIdx (ix1 e) ⟨List.idxOf (0 : Fin 1) (vecGather N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Idealize.ShloMosaic.RowOps

end
-- ==== Proof.RefValue.lean ====
import proofs.«417436_j16896401342873_2_alg».proof.Proof.RefRead
import proofs.«417436_j16896401342873_2_alg».proof.Proof.Spec
import proofs.«417436_j16896401342873_2_alg».proof.Proof.LibRowOps
import proofs.«417436_j16896401342873_2_alg».proof.Proof.LibVecGather

noncomputable section

namespace Cert.Proof.RefValue

open Idealize.ShloMosaic Idealize.ShloMosaic.ValueIdx Idealize.ShloMosaic.RowOps
open Cert.ReferenceIdeal Cert.ReferenceIdeal.Gen Cert.ReferenceIdeal.ReadP

abbrev rowR (x1 : (⟨S2x640000, .i32⟩ : BufTy).Contents (Elt Ideal)) (e : Fin 740000) : BitVec 32 :=
  val_main_v3 (F := Ideal) x1 (ix1 e)

abbrev colR (x1 : (⟨S2x640000, .i32⟩ : BufTy).Contents (Elt Ideal)) (e : Fin 740000) : BitVec 32 :=
  val_main_v6 (F := Ideal) x1 (ix1 e)

variable (x0 : (⟨S100000x128, .f32⟩ : BufTy).Contents (Elt Ideal)) (x1 : (⟨S2x640000, .i32⟩ : BufTy).Contents (Elt Ideal))
  (x2 : (⟨S100000, .i32⟩ : BufTy).Contents (Elt Ideal)) (x3 : (⟨S128x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal))

theorem wrap_v19 (e : Fin 740000) : val_main_v19 (F := Ideal) x1 (ix1 e) = Cert.Spec.wrapIdx (rowR x1 e) := by
  rw [val_main_v19_apply, val_main_v16_apply, val_main_v18_apply, val_main_v15_apply, val_main_c_apply,
    val_main_v17_apply, val_main_c_3_apply]
  rfl

theorem wrap_v26 (e : Fin 740000) : val_main_v26 (F := Ideal) x1 (ix1 e) = Cert.Spec.wrapIdx (colR x1 e) := by
  rw [val_main_v26_apply, val_main_v23_apply, val_main_v25_apply, val_main_v22_apply, val_main_c_4_apply,
    val_main_v24_apply, val_main_c_5_apply]
  rfl

theorem wrap_v36 (e : Fin 740000) : val_main_v36 (F := Ideal) x1 (ix1 e) = Cert.Spec.wrapIdx (rowR x1 e) := by
  rw [val_main_v36_apply, val_main_v33_apply, val_main_v35_apply, val_main_v32_apply, val_main_c_6_apply,
    val_main_v34_apply, val_main_c_7_apply]
  rfl

theorem wrap_v54 (e : Fin 740000) : val_main_v54 (F := Ideal) x1 (ix1 e) = Cert.Spec.wrapIdx (rowR x1 e) := by
  rw [val_main_v54_apply, val_main_v51_apply, val_main_v53_apply, val_main_v50_apply, val_main_c_9_apply,
    val_main_v52_apply, val_main_c_10_apply]
  rfl

theorem col_v9 (e : Fin 740000) (z : Fin 1) : val_main_v9 (F := Ideal) x1 (ix2 e z) = colR x1 e := by
  rw [val_main_v9_apply]; congr 1; funext a; match a with | ⟨0, _⟩ => rfl
theorem col_v42 (e : Fin 740000) (z : Fin 1) : val_main_v42 (F := Ideal) x1 (ix2 e z) = colR x1 e := by
  rw [val_main_v42_apply]; congr 1; funext a; match a with | ⟨0, _⟩ => rfl
theorem col_v60 (e : Fin 740000) (z : Fin 1) : val_main_v60 (F := Ideal) x1 (ix2 e z) = colR x1 e := by
  rw [val_main_v60_apply]; congr 1; funext a; match a with | ⟨0, _⟩ => rfl
theorem col_v20 (e : Fin 740000) (z : Fin 1) : val_main_v20 (F := Ideal) x1 (ix2 e z) = Cert.Spec.wrapIdx (rowR x1 e) := by
  rw [val_main_v20_apply, ← wrap_v19]; congr 1; funext a; match a with | ⟨0, _⟩ => rfl
theorem col_v27 (e : Fin 740000) (z : Fin 1) : val_main_v27 (F := Ideal) x1 (ix2 e z) = Cert.Spec.wrapIdx (colR x1 e) := by
  rw [val_main_v27_apply, ← wrap_v26]; congr 1; funext a; match a with | ⟨0, _⟩ => rfl
theorem col_v37 (e : Fin 740000) (z : Fin 1) : val_main_v37 (F := Ideal) x1 (ix2 e z) = Cert.Spec.wrapIdx (rowR x1 e) := by
  rw [val_main_v37_apply, ← wrap_v36]; congr 1; funext a; match a with | ⟨0, _⟩ => rfl
theorem col_v55 (e : Fin 740000) (z : Fin 1) : val_main_v55 (F := Ideal) x1 (ix2 e z) = Cert.Spec.wrapIdx (rowR x1 e) := by
  rw [val_main_v55_apply, ← wrap_v54]; congr 1; funext a; match a with | ⟨0, _⟩ => rfl

theorem vecScatterAdd_host {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Host.scatterAdd (F := Ideal) (φ := .f32) (vecScatter N E wf) x idx upd (ix1 n)
      = x (ix1 n) + ∑ e ∈ Finset.univ.filter (fun e : Fin E => (idx (ix2 e (0 : Fin 1))).toInt = (n.val : ℤ)),
          upd (ix1 e) := by
  unfold Host.scatterAdd
  rw [Ideal.hostScatterAdd_def]
  exact vecScatterAdd_apply wf x idx upd n

theorem rowScatterAdd_host {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Host.scatterAdd (F := Ideal) (φ := .f32) (rowScatter N E C wf) x idx upd (ix2 n c)
      = x (ix2 n c) + ∑ e ∈ Finset.univ.filter (fun e : Fin E => (idx (ix2 e (0 : Fin 1))).toInt = (n.val : ℤ)),
          upd (ix2 e c) := by
  unfold Host.scatterAdd
  rw [Ideal.hostScatterAdd_def]
  exact rowScatterAdd_apply wf x idx upd n c

theorem deg_ref (n : Fin 100000) : val_main_v10 (F := Ideal) x1 (ix1 n) = Cert.Spec.deg (colR x1) n := by
  unfold val_main_v10
  have hd : scatter_S100000_S740000x1_S740000_n_0_0_1
      = vecScatter 100000 740000 Facts₀.scatter_S100000_S740000x1_S740000_n_0_0_1_wf := rfl
  rw [hd, vecScatterAdd_host]
  simp only [col_v9, val_main_v8_apply, val_main_cst_0_apply, val_main_v7_apply, val_main_cst_apply, Ideal.ofBits_def]
  rfl

theorem dinv_ref (n : Fin 100000) : val_main_v14 (F := Ideal) x1 (ix1 n) = Cert.Spec.dinv (colR x1) n := by
  rw [val_main_v14_apply, val_main_v12_apply, val_main_v13_apply, val_main_call0_v1_apply, val_main_call0_v0_apply,
    val_main_cst_2_apply, val_main_v11_apply, val_main_cst_1_apply, deg_ref, Ideal.hostUnary_rsqrt_def, Ideal.ofBits_def]
  rfl

theorem nrmRow_ref (e : Fin 740000) :
    val_main_v21 (F := Ideal) x1 (ix1 e) = Cert.Spec.dinv (colR x1) (Cert.Spec.gRow (rowR x1 e)) := by
  unfold val_main_v21
  have hd : gather_S100000_S740000x1_S740000_n_0_n_n_0_1_1
      = vecGather 100000 740000 Facts₀.gather_S100000_S740000x1_S740000_n_0_n_n_0_1_1_wf := rfl
  rw [hd, vecGather_apply (by decide), dinv_ref]
  simp only [col_v20]
  rfl

theorem nrmCol_ref (e : Fin 740000) :
    val_main_v28 (F := Ideal) x1 (ix1 e) = Cert.Spec.dinv (colR x1) (Cert.Spec.gRow (colR x1 e)) := by
  unfold val_main_v28
  have hd : gather_S100000_S740000x1_S740000_n_0_n_n_0_1_1
      = vecGather 100000 740000 Facts₀.gather_S100000_S740000x1_S740000_n_0_n_n_0_1_1_wf := rfl
  rw [hd, vecGather_apply (by decide), dinv_ref]
  simp only [col_v27]
  rfl

theorem nrm_ref (e : Fin 740000) :
    val_main_v29 (F := Ideal) x1 (ix1 e)
      = Cert.Spec.dinv (colR x1) (Cert.Spec.gRow (rowR x1 e)) * Cert.Spec.dinv (colR x1) (Cert.Spec.gRow (colR x1 e)) := by
  rw [val_main_v29_apply, nrmRow_ref, nrmCol_ref, Ideal.mulf_def]

theorem xw1_ref (n : Fin 100000) (q : Fin 128) :
    val_main_v30 (F := Ideal) x0 x3 (ix2 n q) = Cert.Spec.xw (fun n k => x0 (ix2 n k)) (fun k q => x3 (ix2 k q)) n q := by
  rw [val_main_v30_apply]
  unfold Cert.Spec.xw
  refine Finset.sum_congr rfl fun k _ => ?_
  have hl : lidx_main_v30 (ix2 n q) k = ix2 n k := by
    funext a; match a with | ⟨0, _⟩ => rfl | ⟨1, _⟩ => rfl
  have hr : ridx_main_v30 (ix2 n q) k = ix2 k q := by
    funext a; match a with | ⟨0, _⟩ => rfl | ⟨1, _⟩ => rfl
  rw [hl, hr]

theorem gat1_ref (e : Fin 740000) (q : Fin 128) :
    val_main_v38 (F := Ideal) x0 x1 x3 (ix2 e q) = Cert.Spec.xw (fun n k => x0 (ix2 n k)) (fun k q => x3 (ix2 k q)) (Cert.Spec.gRow (rowR x1 e)) q := by
  unfold val_main_v38
  have hd : gather_S100000x128_S740000x1_S740000x128_1_0_n_n_0_1_1128
      = rowGather 100000 740000 128 Facts₀.gather_S100000x128_S740000x1_S740000x128_1_0_n_n_0_1_1128_wf := rfl
  rw [hd, rowGather_apply (by decide), xw1_ref]
  simp only [col_v37]
  rfl

theorem nrmB1_ref (e : Fin 740000) (q : Fin 128) :
    val_main_v39 (F := Ideal) x1 (ix2 e q) = (Cert.Spec.dinv (colR x1) (Cert.Spec.gRow (rowR x1 e)) * Cert.Spec.dinv (colR x1) (Cert.Spec.gRow (colR x1 e))) := by
  rw [val_main_v39_apply]
  have h1 : idx_main_v39 (ix2 e q) = ix2 e (0 : Fin 1) := by
    funext a; match a with | ⟨0, _⟩ => rfl | ⟨1, _⟩ => rfl
  rw [h1, val_main_v31_apply]
  have h2 : idx_main_v31 (ix2 e (0 : Fin 1)) = ix1 e := by
    funext a; match a with | ⟨0, _⟩ => rfl
  rw [h2, nrm_ref]

theorem msg1_ref (e : Fin 740000) (q : Fin 128) :
    val_main_v40 (F := Ideal) x0 x1 x3 (ix2 e q) = (Cert.Spec.dinv (colR x1) (Cert.Spec.gRow (rowR x1 e)) * Cert.Spec.dinv (colR x1) (Cert.Spec.gRow (colR x1 e))) * Cert.Spec.xw (fun n k => x0 (ix2 n k)) (fun k q => x3 (ix2 k q)) (Cert.Spec.gRow (rowR x1 e)) q := by
  rw [val_main_v40_apply, nrmB1_ref, gat1_ref, Ideal.mulf_def]

theorem agg1_ref (n : Fin 100000) (q : Fin 128) :
    val_main_v43 (F := Ideal) x0 x1 x3 (ix2 n q)
      = Cert.Spec.zeroF + ∑ e ∈ Cert.Spec.into (colR x1) n, (Cert.Spec.dinv (colR x1) (Cert.Spec.gRow (rowR x1 e)) * Cert.Spec.dinv (colR x1) (Cert.Spec.gRow (colR x1 e))) * Cert.Spec.xw (fun n k => x0 (ix2 n k)) (fun k q => x3 (ix2 k q)) (Cert.Spec.gRow (rowR x1 e)) q := by
  unfold val_main_v43
  have hd : scatter_S100000x128_S740000x1_S740000x128_1_0_0_1
      = rowScatter 100000 740000 128 Facts₀.scatter_S100000x128_S740000x1_S740000x128_1_0_0_1_wf := rfl
  rw [hd, rowScatterAdd_host]
  simp only [col_v42, msg1_ref, val_main_v41_apply, val_main_cst_8_apply, Ideal.ofBits_def]
  rfl

theorem bias1_ref (n : Fin 100000) (q : Fin 128) : val_main_v45 (F := Ideal) x4 (ix2 n q) = x4 (ix1 q) := by
  rw [val_main_v45_apply]
  have h1 : idx_main_v45 (ix2 n q) = ix2 (0 : Fin 1) q := by
    funext a; match a with | ⟨0, _⟩ => rfl | ⟨1, _⟩ => rfl
  rw [h1, val_main_v44_apply]
  have h2 : idx_main_v44 (ix2 (0 : Fin 1) q) = ix1 q := by
    funext a; match a with | ⟨0, _⟩ => rfl
  rw [h2]

theorem layer1_ref (n : Fin 100000) (q : Fin 128) :
    val_main_v47 (F := Ideal) x0 x1 x3 x4 (ix2 n q) = Cert.Spec.relu (Cert.Spec.layerR (rowR x1) (colR x1) (fun n k => x0 (ix2 n k)) (fun k q => x3 (ix2 k q)) (fun q => x4 (ix1 q))) n q := by
  rw [val_main_v47_apply, val_main_v46_apply, agg1_ref, bias1_ref, val_main_call1_v0_apply, val_main_call1_cst_apply,
    Ideal.maximumf_def, Ideal.addf_def, Ideal.ofBits_def]
  rfl

theorem xw2_ref (n : Fin 100000) (q : Fin 64) :
    val_main_v48 (F := Ideal) x0 x1 x3 x4 x5 (ix2 n q) = Cert.Spec.xw (Cert.Spec.relu (Cert.Spec.layerR (rowR x1) (colR x1) (fun n k => x0 (ix2 n k)) (fun k q => x3 (ix2 k q)) (fun q => x4 (ix1 q)))) (fun k q => x5 (ix2 k q)) n q := by
  rw [val_main_v48_apply]
  unfold Cert.Spec.xw
  refine Finset.sum_congr rfl fun k _ => ?_
  have hl : lidx_main_v48 (ix2 n q) k = ix2 n k := by
    funext a; match a with | ⟨0, _⟩ => rfl | ⟨1, _⟩ => rfl
  have hr : ridx_main_v48 (ix2 n q) k = ix2 k q := by
    funext a; match a with | ⟨0, _⟩ => rfl | ⟨1, _⟩ => rfl
  rw [hl, hr, layer1_ref]

theorem gat2_ref (e : Fin 740000) (q : Fin 64) :
    val_main_v56 (F := Ideal) x0 x1 x3 x4 x5 (ix2 e q) = Cert.Spec.xw (Cert.Spec.relu (Cert.Spec.layerR (rowR x1) (colR x1) (fun n k => x0 (ix2 n k)) (fun k q => x3 (ix2 k q)) (fun q => x4 (ix1 q)))) (fun k q => x5 (ix2 k q)) (Cert.Spec.gRow (rowR x1 e)) q := by
  unfold val_main_v56
  have hd : gather_S100000x64_S740000x1_S740000x64_1_0_n_n_0_1_164
      = rowGather 100000 740000 64 Facts₀.gather_S100000x64_S740000x1_S740000x64_1_0_n_n_0_1_164_wf := rfl
  rw [hd, rowGather_apply (by decide), xw2_ref]
  simp only [col_v55]
  rfl

theorem nrmB2_ref (e : Fin 740000) (q : Fin 64) :
    val_main_v57 (F := Ideal) x1 (ix2 e q) = (Cert.Spec.dinv (colR x1) (Cert.Spec.gRow (rowR x1 e)) * Cert.Spec.dinv (colR x1) (Cert.Spec.gRow (colR x1 e))) := by
  rw [val_main_v57_apply]
  have h1 : idx_main_v57 (ix2 e q) = ix2 e (0 : Fin 1) := by
    funext a; match a with | ⟨0, _⟩ => rfl | ⟨1, _⟩ => rfl
  rw [h1, val_main_v49_apply]
  have h2 : idx_main_v49 (ix2 e (0 : Fin 1)) = ix1 e := by
    funext a; match a with | ⟨0, _⟩ => rfl
  rw [h2, nrm_ref]

theorem msg2_ref (e : Fin 740000) (q : Fin 64) :
    val_main_v58 (F := Ideal) x0 x1 x3 x4 x5 (ix2 e q) = (Cert.Spec.dinv (colR x1) (Cert.Spec.gRow (rowR x1 e)) * Cert.Spec.dinv (colR x1) (Cert.Spec.gRow (colR x1 e))) * Cert.Spec.xw (Cert.Spec.relu (Cert.Spec.layerR (rowR x1) (colR x1) (fun n k => x0 (ix2 n k)) (fun k q => x3 (ix2 k q)) (fun q => x4 (ix1 q)))) (fun k q => x5 (ix2 k q)) (Cert.Spec.gRow (rowR x1 e)) q := by
  rw [val_main_v58_apply, nrmB2_ref, gat2_ref, Ideal.mulf_def]

theorem agg2_ref (n : Fin 100000) (q : Fin 64) :
    val_main_v61 (F := Ideal) x0 x1 x3 x4 x5 (ix2 n q)
      = Cert.Spec.zeroF + ∑ e ∈ Cert.Spec.into (colR x1) n, (Cert.Spec.dinv (colR x1) (Cert.Spec.gRow (rowR x1 e)) * Cert.Spec.dinv (colR x1) (Cert.Spec.gRow (colR x1 e))) * Cert.Spec.xw (Cert.Spec.relu (Cert.Spec.layerR (rowR x1) (colR x1) (fun n k => x0 (ix2 n k)) (fun k q => x3 (ix2 k q)) (fun q => x4 (ix1 q)))) (fun k q => x5 (ix2 k q)) (Cert.Spec.gRow (rowR x1 e)) q := by
  unfold val_main_v61
  have hd : scatter_S100000x64_S740000x1_S740000x64_1_0_0_1
      = rowScatter 100000 740000 64 Facts₀.scatter_S100000x64_S740000x1_S740000x64_1_0_0_1_wf := rfl
  rw [hd, rowScatterAdd_host]
  simp only [col_v60, msg2_ref, val_main_v59_apply, val_main_cst_11_apply, Ideal.ofBits_def]
  rfl

theorem bias2_ref (n : Fin 100000) (q : Fin 64) : val_main_v63 (F := Ideal) x6 (ix2 n q) = x6 (ix1 q) := by
  rw [val_main_v63_apply]
  have h1 : idx_main_v63 (ix2 n q) = ix2 (0 : Fin 1) q := by
    funext a; match a with | ⟨0, _⟩ => rfl | ⟨1, _⟩ => rfl
  rw [h1, val_main_v62_apply]
  have h2 : idx_main_v62 (ix2 (0 : Fin 1) q) = ix1 q := by
    funext a; match a with | ⟨0, _⟩ => rfl
  rw [h2]

theorem layer2_ref (n : Fin 100000) (q : Fin 64) :
    val_main_v64 (F := Ideal) x0 x1 x3 x4 x5 x6 (ix2 n q)
      = Cert.Spec.layerR (rowR x1) (colR x1) (Cert.Spec.relu (Cert.Spec.layerR (rowR x1) (colR x1) (fun n k => x0 (ix2 n k)) (fun k q => x3 (ix2 k q)) (fun q => x4 (ix1 q)))) (fun k q => x5 (ix2 k q)) (fun q => x6 (ix1 q)) n q := by
  rw [val_main_v64_apply, agg2_ref, bias2_ref, Ideal.addf_def]
  rfl

end Cert.Proof.RefValue

end
-- ==== Proof.Math.lean ====
import proofs.«417436_j16896401342873_2_alg».proof.Proof.Spec

noncomputable section

namespace Cert.Spec

open Idealize.ShloMosaic

def IsReal (x : EReal) : Prop := ∃ r : ℝ, x = (r : EReal)

theorem zeroF_eq : zeroF = 0 := Ideal.ofBits_zero_f32
theorem oneF_eq : oneF = 1 := by
  show Ideal.ofBits .f32 0x3F800000#32 = 1
  simp [Ideal.ofBits, Ideal.ieee, -EReal.coe_mul]; norm_num

theorem IsReal.eq_coe {x : EReal} (h : IsReal x) : x = ((x.toReal : ℝ) : EReal) := by
  obtain ⟨r, rfl⟩ := h; rfl

theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (hf : ∀ i ∈ s, IsReal (f i)) : IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

theorem deg_eq (col : Fin 740000 → BitVec 32) (n : Fin 100000) : deg col n = (((into col n).card : ℝ) : EReal) := by
  unfold deg
  rw [zeroF_eq, oneF_eq, zero_add, ← EReal.coe_one, ← coe_sum, Finset.sum_const, nsmul_eq_mul, mul_one]

theorem dinv_real (col : Fin 740000 → BitVec 32) (n : Fin 100000) : IsReal (dinv col n) := by
  unfold dinv Scalar.select
  rw [deg_eq]
  split
  · rw [Ideal.rsqrt_coe]
    have h0 : ¬ (((into col n).card : ℝ) < 0) := not_lt.mpr (Nat.cast_nonneg _)
    rw [if_neg h0]
    split
    · rename_i hc h
      exfalso
      rw [h, zeroF_eq] at hc
      change Ideal.cmp .ogt 0 0 = 1#1 at hc
      simp [Ideal.cmp] at hc
    · exact ⟨_, rfl⟩
  · rw [zeroF_eq]; exact IsReal.zero

theorem gRow_of_mem_into (col : Fin 740000 → BitVec 32) (n : Fin 100000) (e : Fin 740000) (he : e ∈ into col n) :
    gRow (col e) = n := by
  have h : (col e).toInt = (n.val : ℤ) := by simpa [into] using he
  have hlt : ¬ (col e).slt 0#32 = true := by
    rw [BitVec.slt, h]; simp
  have hw : wrapIdx (col e) = col e := by
    unfold wrapIdx Scalar.select IntOp.cmpi
    simp [hlt]
  apply Fin.ext
  show min (wrapIdx (col e)).toInt.toNat (100000 - 1) = n.val
  rw [hw, h]
  have := n.isLt
  simp; omega

theorem xw_real {K C : Nat} (x : Fin 100000 → Fin K → EReal) (W : Fin K → Fin C → EReal)
    (hx : ∀ n k, IsReal (x n k)) (hW : ∀ k q, IsReal (W k q)) (m : Fin 100000) (q : Fin C) : IsReal (xw x W m q) :=
  IsReal.sum _ _ fun k _ => (hx m k).mul (hW k q)

theorem layer_eq {K C : Nat} (row col : Fin 740000 → BitVec 32) (x : Fin 100000 → Fin K → EReal) (W : Fin K → Fin C → EReal)
    (b : Fin C → EReal) (hx : ∀ n k, IsReal (x n k)) (hW : ∀ k q, IsReal (W k q)) (n : Fin 100000) (q : Fin C) :
    layerK row col x W b n q = layerR row col x W b n q := by

  obtain ⟨d, hd⟩ : ∃ d : Fin 100000 → ℝ, ∀ m, dinv col m = (d m : EReal) :=
    ⟨fun m => (dinv col m).toReal, fun m => (dinv_real col m).eq_coe⟩
  obtain ⟨y, hy⟩ : ∃ y : Fin 100000 → ℝ, ∀ m, xw x W m q = (y m : EReal) :=
    ⟨fun m => (xw x W m q).toReal, fun m => (xw_real x W hx hW m q).eq_coe⟩
  unfold layerK layerR
  rw [zeroF_eq, zero_add, zero_add]

  have hR : ∑ e ∈ into col n, (dinv col (gRow (row e)) * dinv col (gRow (col e))) * xw x W (gRow (row e)) q
      = ∑ e ∈ into col n, (((d (gRow (row e)) * d n) * y (gRow (row e)) : ℝ) : EReal) := by
    refine Finset.sum_congr rfl fun e he => ?_
    rw [gRow_of_mem_into col n e he, hd, hd, hy, ← EReal.coe_mul, ← EReal.coe_mul]
  have hK : ∑ e ∈ into col n, xw x W (gRow (row e)) q * dinv col (gRow (row e))
      = ∑ e ∈ into col n, ((y (gRow (row e)) * d (gRow (row e)) : ℝ) : EReal) := by
    refine Finset.sum_congr rfl fun e _ => ?_
    rw [hd, hy, ← EReal.coe_mul]
  have hsum : ∑ e ∈ into col n, y (gRow (row e)) * d (gRow (row e)) * d n
      = ∑ e ∈ into col n, d (gRow (row e)) * d n * y (gRow (row e)) :=
    Finset.sum_congr rfl fun e _ => by ring
  rw [hR, hK, ← coe_sum, ← coe_sum, hd n, ← EReal.coe_mul, Finset.sum_mul, hsum]

theorem layerR_real {K C : Nat} (row col : Fin 740000 → BitVec 32) (x : Fin 100000 → Fin K → EReal) (W : Fin K → Fin C → EReal)
    (b : Fin C → EReal) (hx : ∀ n k, IsReal (x n k)) (hW : ∀ k q, IsReal (W k q)) (hb : ∀ q, IsReal (b q))
    (n : Fin 100000) (q : Fin C) : IsReal (layerR row col x W b n q) := by
  unfold layerR
  rw [zeroF_eq]
  refine (IsReal.zero.add (IsReal.sum _ _ fun e _ => ?_)).add (hb q)
  exact ((dinv_real col _).mul (dinv_real col _)).mul (xw_real x W hx hW _ q)

theorem relu_real {C : Nat} (h : Fin 100000 → Fin C → EReal) (hh : ∀ n q, IsReal (h n q)) (n : Fin 100000) (q : Fin C) :
    IsReal (relu h n q) := by
  unfold relu
  rw [zeroF_eq]
  exact (hh n q).max IsReal.zero

theorem eq_ofNat_iff_toInt (w : BitVec 32) (g : Fin 256) : w = BitVec.ofNat 32 g.val ↔ w.toInt = (g.val : ℤ) := by
  have hg : (BitVec.ofNat 32 g.val).toInt = (g.val : ℤ) := by
    have hlt := g.isLt
    rw [BitVec.toInt_eq_toNat_of_lt (by rw [BitVec.toNat_ofNat]; omega), BitVec.toNat_ofNat]
    congr 1
    omega
  rw [← hg, BitVec.toInt_inj]

theorem sum_hit_mul (batch : Fin 100000 → BitVec 32) (a : Fin 100000 → EReal) (g : Fin 256) :
    ∑ n : Fin 100000, hit (batch n) g * a n = ∑ n ∈ into batch g, a n := by
  unfold into
  rw [Finset.sum_filter]
  refine Finset.sum_congr rfl fun n _ => ?_
  unfold hit
  by_cases hw : batch n = BitVec.ofNat 32 g.val
  · rw [if_pos hw, if_pos ((eq_ofNat_iff_toInt _ g).mp hw), one_mul]
  · rw [if_neg hw, if_neg (fun hc => hw ((eq_ofNat_iff_toInt _ g).mpr hc)), zero_mul]

theorem pool_eq (batch : Fin 100000 → BitVec 32) (h : Fin 100000 → Fin 64 → EReal) (hh : ∀ n f, IsReal (h n f))
    (g : Fin 256) (f : Fin 64) : poolK batch h g f = poolR batch h g f := by
  unfold poolK poolR
  have hcount : ∑ n : Fin 100000, hit (batch n) g = ∑ _n ∈ into batch g, (1 : EReal) := by
    rw [← sum_hit_mul batch (fun _ => 1) g]
    exact Finset.sum_congr rfl fun n _ => (mul_one _).symm
  rw [sum_hit_mul batch (fun n => h n f) g, hcount, zeroF_eq, oneF_eq, zero_add, zero_add, max_comm]

theorem net_eq (row col : Fin 740000 → BitVec 32) (batch : Fin 100000 → BitVec 32)
    (x : Fin 100000 → Fin 128 → EReal) (W1 : Fin 128 → Fin 128 → EReal) (b1 : Fin 128 → EReal)
    (W2 : Fin 128 → Fin 64 → EReal) (b2 : Fin 64 → EReal)
    (hx : ∀ n k, IsReal (x n k)) (hW1 : ∀ k q, IsReal (W1 k q)) (hb1 : ∀ q, IsReal (b1 q))
    (hW2 : ∀ k q, IsReal (W2 k q)) (hb2 : ∀ q, IsReal (b2 q)) (g : Fin 256) (f : Fin 64) :
    netK row col batch x W1 b1 W2 b2 g f = netR row col batch x W1 b1 W2 b2 g f := by
  unfold netK netR

  have h1 : layerK row col x W1 b1 = layerR row col x W1 b1 :=
    funext fun n => funext fun q => layer_eq row col x W1 b1 hx hW1 n q
  have hr1 : ∀ n k, IsReal (relu (layerR row col x W1 b1) n k) :=
    relu_real _ (layerR_real row col x W1 b1 hx hW1 hb1)
  have h2 : layerK row col (relu (layerR row col x W1 b1)) W2 b2 = layerR row col (relu (layerR row col x W1 b1)) W2 b2 :=
    funext fun n => funext fun q => layer_eq row col _ W2 b2 hr1 hW2 n q
  rw [h1, h2]
  exact pool_eq batch _ (layerR_real row col _ W2 b2 hr1 hW2 hb2) g f

end Cert.Spec

end
-- ==== Proof.KI.KernelValue.lean ====
import proofs.«417436_j16896401342873_2_alg».proof.Proof.KI.Run
import proofs.«417436_j16896401342873_2_alg».proof.Proof.KI.Host
import proofs.«417436_j16896401342873_2_alg».proof.Proof.KI.Val0
import proofs.«417436_j16896401342873_2_alg».proof.Proof.KI.Val1
import proofs.«417436_j16896401342873_2_alg».proof.Proof.KI.Val2
import proofs.«417436_j16896401342873_2_alg».proof.Proof.KI.Val3
import proofs.«417436_j16896401342873_2_alg».proof.Proof.KI.Val4
import proofs.«417436_j16896401342873_2_alg».proof.Proof.RefValue
import proofs.«417436_j16896401342873_2_alg».proof.Proof.Math

noncomputable section

namespace Cert.KernelIdeal.Hand

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

abbrev argX (n : Fin 100000) (k : Fin 128) : EReal := (m ((c : Thread nD τ).loc main_arg0) : S100000x128.Idx → EReal) (ix2 n k)
abbrev argW1 (k : Fin 128) (q : Fin 128) : EReal := (m ((c : Thread nD τ).loc main_arg3) : S128x128.Idx → EReal) (ix2 k q)
abbrev argB1 (q : Fin 128) : EReal := (m ((c : Thread nD τ).loc main_arg4) : S128.Idx → EReal) (ix1 q)
abbrev argW2 (k : Fin 128) (q : Fin 64) : EReal := (m ((c : Thread nD τ).loc main_arg5) : S128x64.Idx → EReal) (ix2 k q)
abbrev argB2 (q : Fin 64) : EReal := (m ((c : Thread nD τ).loc main_arg6) : S64.Idx → EReal) (ix1 q)
abbrev argBatch (n : Fin 100000) : BitVec 32 := (m ((c : Thread nD τ).loc main_arg2) : S100000.Idx → BitVec 32) (ix1 n)

abbrev rowW (e : Fin 740000) : BitVec 32 :=
  Cert.ReferenceIdeal.ReadP.val_main_v3 (F := Ideal) (m ((c : Thread nD τ).loc main_arg1)) (ix1 e)
abbrev colW (e : Fin 740000) : BitVec 32 :=
  Cert.ReferenceIdeal.ReadP.val_main_v6 (F := Ideal) (m ((c : Thread nD τ).loc main_arg1)) (ix1 e)

theorem srcWords : W3 m ρ c (Proc.devRef .tc main_v3)
    = Cert.ReferenceIdeal.ReadP.val_main_v3 (F := Ideal) (m ((c : Thread nD τ).loc main_arg1)) :=
  pre_row (W0 m ρ c)
theorem dstWords : W3 m ρ c (Proc.devRef .tc main_v6)
    = Cert.ReferenceIdeal.ReadP.val_main_v6 (F := Ideal) (m ((c : Thread nD τ).loc main_arg1)) :=
  pre_col (W0 m ρ c)

theorem dinvCol (n : Fin 100000) :
    (W3 m ρ c (Proc.devRef .tc main_v15) : S100000x1.Idx → EReal) (ix2 n (0 : Fin 1)) = dinv (colW m c) n :=
  (pre_dinv (W0 m ρ c) n).trans (Cert.Proof.RefValue.dinv_ref _ n)

abbrev scaled1 : S100000x128.Idx → EReal := W4 m ρ c (Proc.devRef .tc main_v16)
abbrev summed1 : S100000x128.Idx → EReal := W5 m ρ c (Proc.devRef .tc main_v26)
abbrev hidden : S100000x128.Idx → EReal := W6 m ρ c (Proc.devRef .tc main_v28)
abbrev scaled2 : S100000x64.Idx → EReal := W7 m ρ c (Proc.devRef .tc main_v29)
abbrev summed2 : S100000x64.Idx → EReal := W8 m ρ c (Proc.devRef .tc main_v39)
abbrev logits : S100000x64.Idx → EReal := W9 m ρ c (Proc.devRef .tc main_v41)
abbrev pooledOut : S256x64.Idx → EReal := W11 m ρ c (Proc.devRef .tc main_v43)

theorem scaled1_apply (n : Fin 100000) (q : Fin 128) :
    scaled1 m ρ c (ix2 n q) = xw (argX m c) (argW1 m c) n q * dinv (colW m c) n := by
  show (W4 m ρ c (Proc.devRef .tc main_v16) : S100000x128.Idx → EReal) (ix2 n q) = _
  rw [W4_out m ρ c]
  refine (final0 (V3 m ρ) c n q).trans ?_
  have hx : feat0 (V3 m ρ) c = (m ((c : Thread nD τ).loc main_arg0) : S100000x128.Idx → EReal) := Wb_kept m ρ c main_arg0 0 3 (by decide)
  have hw : wts0 (V3 m ρ) c = (m ((c : Thread nD τ).loc main_arg3) : S128x128.Idx → EReal) := Wb_kept m ρ c main_arg3 0 3 (by decide)
  rw [hx, hw]
  exact congrArg (fun z => (∑ k : Fin 128, argX m c n k * argW1 m c k q) * z) (dinvCol m ρ c n)

theorem dst_at4 : (W4 m ρ c (Proc.devRef .tc main_v6) : S740000.Idx → BitVec 32)
    = Cert.ReferenceIdeal.ReadP.val_main_v6 (F := Ideal) (m ((c : Thread nD τ).loc main_arg1)) :=
  (Wb_kept m ρ c main_v6 3 4 (by decide)).trans (dstWords m ρ c)
theorem src_at4 : (W4 m ρ c (Proc.devRef .tc main_v3) : S740000.Idx → BitVec 32)
    = Cert.ReferenceIdeal.ReadP.val_main_v3 (F := Ideal) (m ((c : Thread nD τ).loc main_arg1)) :=
  (Wb_kept m ρ c main_v3 3 4 (by decide)).trans (srcWords m ρ c)

theorem summed1_apply (n : Fin 100000) (q : Fin 128) :
    summed1 m ρ c (ix2 n q)
      = zeroF + ∑ e ∈ into (colW m c) n, xw (argX m c) (argW1 m c) (gRow (rowW m c e)) q * dinv (colW m c) (gRow (rowW m c e)) := by
  refine (host1_agg (W4 m ρ c) n q).trans ?_
  rw [dst_at4 m ρ c, src_at4 m ρ c]
  refine congrArg (fun z => zeroF + z) (Finset.sum_congr rfl fun e _ => ?_)
  exact scaled1_apply m ρ c (gRow (rowW m c e)) q

theorem hidden_apply (n : Fin 100000) (q : Fin 128) :
    hidden m ρ c (ix2 n q) = relu (layerK (rowW m c) (colW m c) (argX m c) (argW1 m c) (argB1 m c)) n q := by
  show (W6 m ρ c (Proc.devRef .tc main_v28) : S100000x128.Idx → EReal) (ix2 n q) = _
  rw [W6_out m ρ c]
  refine (final1 (V5 m ρ) c n q).trans ?_
  have ha : aggArr1 (V5 m ρ) c (ix2 n q) = summed1 m ρ c (ix2 n q) := rfl
  have hd : dinvArr1 (V5 m ρ) c (ix2 n (0 : Fin 1)) = dinv (colW m c) n :=
    (congrFun (Wb_kept m ρ c main_v15 3 5 (by decide)) (ix2 n (0 : Fin 1))).trans (dinvCol m ρ c n)
  have hb : biasArr1 (V5 m ρ) c (ix2 (0 : Fin 1) q) = argB1 m c q :=
    (host1_bias (W4 m ρ c) q).trans (congrFun (Wb_kept m ρ c main_arg4 0 4 (by decide)) (ix1 q))
  rw [ha, hd, hb, summed1_apply m ρ c n q]
  rfl

theorem hidden_fun : (fun (n : Fin 100000) (k : Fin 128) => hidden m ρ c (ix2 n k))
    = relu (layerK (rowW m c) (colW m c) (argX m c) (argW1 m c) (argB1 m c)) :=
  funext fun n => funext fun k => hidden_apply m ρ c n k

theorem scaled2_apply (n : Fin 100000) (q : Fin 64) :
    scaled2 m ρ c (ix2 n q)
      = xw (fun (n : Fin 100000) (k : Fin 128) => hidden m ρ c (ix2 n k)) (argW2 m c) n q * dinv (colW m c) n := by
  show (W7 m ρ c (Proc.devRef .tc main_v29) : S100000x64.Idx → EReal) (ix2 n q) = _
  rw [W7_out m ρ c]
  refine (final2 (V6 m ρ) c n q).trans ?_
  have hw : wts2 (V6 m ρ) c = (m ((c : Thread nD τ).loc main_arg5) : S128x64.Idx → EReal) := Wb_kept m ρ c main_arg5 0 6 (by decide)
  have hd : scl2 (V6 m ρ) c (ix2 n (0 : Fin 1)) = dinv (colW m c) n :=
    (congrFun (Wb_kept m ρ c main_v15 3 6 (by decide)) (ix2 n (0 : Fin 1))).trans (dinvCol m ρ c n)
  rw [hw, hd]
  rfl

theorem dst_at7 : (W7 m ρ c (Proc.devRef .tc main_v6) : S740000.Idx → BitVec 32)
    = Cert.ReferenceIdeal.ReadP.val_main_v6 (F := Ideal) (m ((c : Thread nD τ).loc main_arg1)) :=
  (Wb_kept m ρ c main_v6 3 7 (by decide)).trans (dstWords m ρ c)
theorem src_at7 : (W7 m ρ c (Proc.devRef .tc main_v3) : S740000.Idx → BitVec 32)
    = Cert.ReferenceIdeal.ReadP.val_main_v3 (F := Ideal) (m ((c : Thread nD τ).loc main_arg1)) :=
  (Wb_kept m ρ c main_v3 3 7 (by decide)).trans (srcWords m ρ c)

theorem summed2_apply (n : Fin 100000) (q : Fin 64) :
    summed2 m ρ c (ix2 n q)
      = zeroF + ∑ e ∈ into (colW m c) n,
          xw (fun (n : Fin 100000) (k : Fin 128) => hidden m ρ c (ix2 n k)) (argW2 m c) (gRow (rowW m c e)) q
            * dinv (colW m c) (gRow (rowW m c e)) := by
  refine (host3_agg (W7 m ρ c) n q).trans ?_
  rw [dst_at7 m ρ c, src_at7 m ρ c]
  refine congrArg (fun z => zeroF + z) (Finset.sum_congr rfl fun e _ => ?_)
  exact scaled2_apply m ρ c (gRow (rowW m c e)) q

theorem logits_apply (n : Fin 100000) (q : Fin 64) :
    logits m ρ c (ix2 n q)
      = layerK (rowW m c) (colW m c) (relu (layerK (rowW m c) (colW m c) (argX m c) (argW1 m c) (argB1 m c)))
          (argW2 m c) (argB2 m c) n q := by
  show (W9 m ρ c (Proc.devRef .tc main_v41) : S100000x64.Idx → EReal) (ix2 n q) = _
  rw [W9_out m ρ c]
  refine (final3 (V8 m ρ) c n q).trans ?_
  have ha : aggArr3 (V8 m ρ) c (ix2 n q) = summed2 m ρ c (ix2 n q) := rfl
  have hd : dinvArr3 (V8 m ρ) c (ix2 n (0 : Fin 1)) = dinv (colW m c) n :=
    (congrFun (Wb_kept m ρ c main_v15 3 8 (by decide)) (ix2 n (0 : Fin 1))).trans (dinvCol m ρ c n)
  have hb : biasArr3 (V8 m ρ) c (ix2 (0 : Fin 1) q) = argB2 m c q :=
    (host3_bias (W7 m ρ c) q).trans (congrFun (Wb_kept m ρ c main_arg6 0 7 (by decide)) (ix1 q))
  rw [ha, hd, hb, summed2_apply m ρ c n q, hidden_fun m ρ c]
  rfl

theorem kernel_value (g : Fin 256) (f : Fin 64) :
    pooledOut m ρ c (ix2 g f)
      = netK (rowW m c) (colW m c) (argBatch m c) (argX m c) (argW1 m c) (argB1 m c) (argW2 m c) (argB2 m c) g f := by
  show (W11 m ρ c (Proc.devRef .tc main_v43) : S256x64.Idx → EReal) (ix2 g f) = _
  rw [W11_out m ρ c]
  refine (final4 (V10 m ρ) c g f).trans ?_
  have hb : (fun n : Fin 100000 => (V10 m ρ c main_v42 : S100000x1.Idx → BitVec 32) (ix2 n (0 : Fin 1))) = argBatch m c :=
    funext fun n => (host4_batch (W9 m ρ c) n).trans (congrFun (Wb_kept m ρ c main_arg2 0 9 (by decide)) (ix1 n))
  have hh : (fun (n : Fin 100000) (f : Fin 64) => (V10 m ρ c main_v41 : S100000x64.Idx → EReal) (ix2 n f))
      = layerK (rowW m c) (colW m c) (relu (layerK (rowW m c) (colW m c) (argX m c) (argW1 m c) (argB1 m c)))
          (argW2 m c) (argB2 m c) :=
    funext fun n => funext fun f => (congrFun (Wb_kept m ρ c main_v41 9 10 (by decide)) (ix2 n f)).trans (logits_apply m ρ c n f)
  rw [hb, hh]
  rfl

end Cert.KernelIdeal.Hand

end
-- ==== Proof.RefPool.lean ====
import proofs.«417436_j16896401342873_2_alg».proof.Proof.RefRead
import proofs.«417436_j16896401342873_2_alg».proof.Proof.Spec
import proofs.«417436_j16896401342873_2_alg».proof.Proof.LibRowOps

noncomputable section

namespace Cert.Proof.RefPool

open Idealize.ShloMosaic Idealize.ShloMosaic.ValueIdx
open Cert.ReferenceIdeal Cert.ReferenceIdeal.ReadP
open scoped BigOperators

theorem rowScatterAdd_host {N E C w : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32) (n : Fin N) (c : Fin C) :
    Host.scatterAdd (F := Ideal) (φ := .f32) (RowOps.rowScatter N E C wf) x idx upd (ix2 n c)
      = x (ix2 n c) + ∑ e ∈ Finset.univ.filter (fun e : Fin E => (idx (ix2 e (0 : Fin 1))).toInt = (n.val : ℤ)), upd (ix2 e c) := by
  unfold Host.scatterAdd
  exact RowOps.rowScatterAdd_apply wf x idx upd n c

theorem vecScatterAdd_host {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (φ := .f32) (RowOps.vecScatter N E wf) x idx upd (ix1 n)
      = x (ix1 n) + ∑ e ∈ Finset.univ.filter (fun e : Fin E => (idx (ix2 e (0 : Fin 1))).toInt = (n.val : ℤ)), upd (ix1 e) := by
  unfold Host.scatterAdd
  exact RowOps.vecScatterAdd_apply wf x idx upd n

theorem words66 (x2 : (⟨S100000, .i32⟩ : BufTy).Contents (Elt Ideal)) (e : Fin 100000) :
    val_main_v66 (F := Ideal) x2 (ix2 e (0 : Fin 1)) = x2 (ix1 e) := by
  rw [val_main_v66_apply]
  exact congrArg x2 (funext fun a => match a with | ⟨0, _⟩ => rfl)

theorem words70 (x2 : (⟨S100000, .i32⟩ : BufTy).Contents (Elt Ideal)) (e : Fin 100000) :
    val_main_v70 (F := Ideal) x2 (ix2 e (0 : Fin 1)) = x2 (ix1 e) := by
  rw [val_main_v70_apply]
  exact congrArg x2 (funext fun a => match a with | ⟨0, _⟩ => rfl)

theorem sums_apply (x2 : (⟨S100000, .i32⟩ : BufTy).Contents (Elt Ideal)) (y : (⟨S100000x64, .f32⟩ : BufTy).Contents (Elt Ideal))
    (g : Fin 256) (f : Fin 64) :
    Host.scatterAdd (F := Ideal) (φ := .f32) scatter_S256x64_S100000x1_S100000x64_1_0_0_1 (val_main_v65 (F := Ideal)) (val_main_v66 (F := Ideal) x2) y (ix2 g f)
      = Cert.Spec.zeroF + ∑ n ∈ Cert.Spec.into (fun n => x2 (ix1 n)) g, y (ix2 n f) := by
  have hd : scatter_S256x64_S100000x1_S100000x64_1_0_0_1
      = RowOps.rowScatter 256 100000 64 Facts₀.scatter_S256x64_S100000x1_S100000x64_1_0_0_1_wf := rfl
  rw [hd, rowScatterAdd_host]
  unfold Cert.Spec.into
  simp only [words66]
  rfl

theorem counts_apply (x2 : (⟨S100000, .i32⟩ : BufTy).Contents (Elt Ideal)) (g : Fin 256) :
    val_main_v71 (F := Ideal) x2 (ix1 g) = Cert.Spec.zeroF + ∑ _n ∈ Cert.Spec.into (fun n => x2 (ix1 n)) g, Cert.Spec.oneF := by
  unfold val_main_v71
  have hd : scatter_S256_S100000x1_S100000_n_0_0_1
      = RowOps.vecScatter 256 100000 Facts₀.scatter_S256_S100000x1_S100000_n_0_0_1_wf := rfl
  rw [hd, vecScatterAdd_host]
  unfold Cert.Spec.into
  simp only [words70]
  rfl

theorem pool_ref (x0 : (⟨S100000x128, .f32⟩ : BufTy).Contents (Elt Ideal)) (x1 : (⟨S2x640000, .i32⟩ : BufTy).Contents (Elt Ideal))
    (x2 : (⟨S100000, .i32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal))
    (x6 : (⟨S64, .f32⟩ : BufTy).Contents (Elt Ideal)) (g : Fin 256) (f : Fin 64) :
    val_main_v75 (F := Ideal) x0 x1 x2 x3 x4 x5 x6 (ix2 g f)
      = Cert.Spec.poolR (fun n => x2 (ix1 n)) (fun n f => val_main_v64 (F := Ideal) x0 x1 x3 x4 x5 x6 (ix2 n f)) g f := by
  rw [val_main_v75_apply]
  unfold val_main_v67
  rw [sums_apply, val_main_v74_apply, val_main_v73_apply, val_main_v72_apply]
  have hj : idx_main_v73 (idx_main_v74 (ix2 g f)) = ix1 g := funext fun a => match a with | ⟨0, _⟩ => rfl
  rw [hj, counts_apply]
  rfl

end Cert.Proof.RefPool

end
-- ==== Proof.RefNet.lean ====
import proofs.«417436_j16896401342873_2_alg».proof.Proof.RefValue
import proofs.«417436_j16896401342873_2_alg».proof.Proof.RefPool

noncomputable section

namespace Cert.Proof.RefValue

open Idealize.ShloMosaic Idealize.ShloMosaic.ValueIdx Cert.ReferenceIdeal Cert.ReferenceIdeal.ReadP

theorem ref_value (x0 : (⟨S100000x128, .f32⟩ : BufTy).Contents (Elt Ideal)) (x1 : (⟨S2x640000, .i32⟩ : BufTy).Contents (Elt Ideal))
    (x2 : (⟨S100000, .i32⟩ : BufTy).Contents (Elt Ideal)) (x3 : (⟨S128x128, .f32⟩ : BufTy).Contents (Elt Ideal))
    (x4 : (⟨S128, .f32⟩ : BufTy).Contents (Elt Ideal)) (x5 : (⟨S128x64, .f32⟩ : BufTy).Contents (Elt Ideal))
    (x6 : (⟨S64, .f32⟩ : BufTy).Contents (Elt Ideal)) (g : Fin 256) (f : Fin 64) :
    val_main_v75 (F := Ideal) x0 x1 x2 x3 x4 x5 x6 (ix2 g f)
      = Cert.Spec.netR (rowR x1) (colR x1) (fun n => x2 (ix1 n)) (fun n k => x0 (ix2 n k)) (fun k q => x3 (ix2 k q))
          (fun q => x4 (ix1 q)) (fun k q => x5 (ix2 k q)) (fun q => x6 (ix1 q)) g f :=
  (Cert.Proof.RefPool.pool_ref x0 x1 x2 x3 x4 x5 x6 g f).trans
    (congrArg (fun h => Cert.Spec.poolR (fun n => x2 (ix1 n)) h g f)
      (funext fun n => funext fun f => layer2_ref x0 x1 x3 x4 x5 x6 n f))

end Cert.Proof.RefValue

end
-- ==== Proof.Finite.lean ====
import proofs.«417436_j16896401342873_2_alg».proof.Pre_finite_inputs
import proofs.«417436_j16896401342873_2_alg».proof.Proof.Gen.Pre_finite_inputs
import Idealize.ShloMosaic.Lib.ReduceAll
import Idealize.ShloMosaic.PureOps.Ideal

namespace Cert.Proof.Finite

open Idealize.ShloMosaic
open Cert.Pre_finite_inputs

def IsReal (x : EReal) : Prop := ∃ r : ℝ, x = (r : EReal)

instance subsingleton_scalar_idx : Subsingleton S_.Idx := ⟨fun a b => funext fun d => d.elim0⟩

theorem inf_word : Ideal.ofBits .f32 0x7F800000#32 = (⊤ : EReal) := by
  simp [Ideal.ofBits, Ideal.ieee]

theorem isReal_of_abs_lt_top (x : EReal) (h : max x (-x) < ⊤) : IsReal x := by
  induction x using EReal.rec with
  | bot => exact absurd h (by simp)
  | coe r => exact ⟨r, rfl⟩
  | top => exact absurd h (by simp)

theorem isReal_of_word (x : EReal)
    (h : FloatOps.cmpf (F := Ideal) (φ := .f32) .olt (FloatOps.hostAbsf (F := Ideal) (φ := .f32) x)
        (FloatOps.ofBits (F := Ideal) .f32 0x7F800000#32) = 1#1) : IsReal x := by
  refine isReal_of_abs_lt_top x ?_
  have h' : BitVec.ofBool (decide (max x (-x) < Ideal.ofBits .f32 0x7F800000#32)) = 1#1 := h
  rw [inf_word] at h'
  by_contra hn
  rw [decide_eq_false hn] at h'
  exact absurd h' (by decide)

theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant (F := Ideal) S_ .f32 0x7F800000#32)))
          init hr hu j = 1#1) :
    ∀ i, IsReal (x i) := fun i =>
  isReal_of_word (x i) (Host.reduce_andi_all _ init hr hu j e i)

theorem reals_of_pre_of [Cert.Pre_finite_inputs.Facts]
    (a0 : FVec Ideal S100000x128 .f32) (a1 : IVec S2x640000 32) (a2 : IVec S100000 32)
    (a3 : FVec Ideal S128x128 .f32) (a4 : FVec Ideal S128 .f32) (a5 : FVec Ideal S128x64 .f32)
    (a6 : FVec Ideal S64 .f32)
    (h : Cert.Pre_finite_inputs.fn (F := Ideal) a0 a1 a2 a3 a4 a5 a6 = fun _ => 1#1) :
    (∀ i, IsReal (a0 i)) ∧ (∀ i, IsReal (a3 i)) ∧ (∀ i, IsReal (a4 i)) ∧ (∀ i, IsReal (a5 i))
      ∧ (∀ i, IsReal (a6 i)) := by
  have h0 := congrFun h (fun d => d.elim0 : S_.Idx)
  dsimp only [Cert.Pre_finite_inputs.fn, Cert.Pre_finite_inputs.fn_part1, andi] at h0
  obtain ⟨h0123, hb2⟩ := IntOp.andi_eq_one.1 h0
  obtain ⟨h012, hW2⟩ := IntOp.andi_eq_one.1 h0123
  obtain ⟨h01, hb1⟩ := IntOp.andi_eq_one.1 h012
  obtain ⟨hx, hW1⟩ := IntOp.andi_eq_one.1 h01
  exact ⟨all_real a0 _ _ _ _ _ hx, all_real a3 _ _ _ _ _ hW1, all_real a4 _ _ _ _ _ hb1,
    all_real a5 _ _ _ _ _ hW2, all_real a6 _ _ _ _ _ hb2⟩

theorem reals_of_pre
    (a0 : FVec Ideal S100000x128 .f32) (a1 : IVec S2x640000 32) (a2 : IVec S100000 32)
    (a3 : FVec Ideal S128x128 .f32) (a4 : FVec Ideal S128 .f32) (a5 : FVec Ideal S128x64 .f32)
    (a6 : FVec Ideal S64 .f32)
    (h : Cert.Pre_finite_inputs.fn (F := Ideal) a0 a1 a2 a3 a4 a5 a6 = fun _ => 1#1) :
    (∀ i, IsReal (a0 i)) ∧ (∀ i, IsReal (a3 i)) ∧ (∀ i, IsReal (a4 i)) ∧ (∀ i, IsReal (a5 i))
      ∧ (∀ i, IsReal (a6 i)) :=
  reals_of_pre_of a0 a1 a2 a3 a4 a5 a6 h

end Cert.Proof.Finite
-- ==== Proof.Algebraic.lean ====
import proofs.«417436_j16896401342873_2_alg».proof.Defs
import proofs.«417436_j16896401342873_2_alg».proof.Proof.Gen.Kernel
import proofs.«417436_j16896401342873_2_alg».proof.Proof.Gen.KernelIdeal
import proofs.«417436_j16896401342873_2_alg».proof.Proof.Gen.ReferenceIdeal
import proofs.«417436_j16896401342873_2_alg».proof.Proof.Gen.Pre_finite_inputs
import proofs.«417436_j16896401342873_2_alg».proof.Proof.KI.KernelValue
import proofs.«417436_j16896401342873_2_alg».proof.Proof.RefNet
import proofs.«417436_j16896401342873_2_alg».proof.Proof.Math
import proofs.«417436_j16896401342873_2_alg».proof.Proof.Finite

noncomputable section

open Idealize.ShloMosaic Idealize.ShloMosaic.TcCoe Idealize.ShloMosaic.ValueIdx Idealize.SL.Sem

namespace Cert.Proof.ValueClaims

theorem algebraic : Cert.algebraic_KernelIdeal_ReferenceIdeal := by
  intro m ρ m' ρ' hpre hagree
  refine ⟨fun c => Cert.KernelIdeal.Hand.W11 m ρ c (Proc.devRef .tc Cert.KernelIdeal.main_v43),
    Cert.KernelIdeal.Hand.run_args (F := Ideal) m ρ, ?_⟩
  refine (θ_run Cert.ReferenceIdeal.defs _ _).mono (fun r h c => ⟨(h c).1.trans ?_, (h c).2⟩)
    (Cert.ReferenceIdeal.ValueP.run (F := Ideal) m' ρ')
  obtain ⟨hx, hW1, hb1, hW2, hb2⟩ := Cert.Proof.Finite.reals_of_pre _ _ _ _ _ _ _ (hpre c)
  rw [Cert.ReferenceIdeal.ReadP.val_main_v75_eq m' c, (hagree c).1, (hagree c).2.1, (hagree c).2.2.1, (hagree c).2.2.2.1,
    (hagree c).2.2.2.2.1, (hagree c).2.2.2.2.2.1, (hagree c).2.2.2.2.2.2]
  funext i
  obtain ⟨g, f, rfl⟩ : ∃ (g : Fin 256) (f : Fin 64), i = ix2 g f := ⟨i 0, i 1, eq_ix2 i⟩
  refine (Cert.Proof.RefValue.ref_value _ _ _ _ _ _ _ g f).trans ?_
  refine ((Cert.Spec.net_eq _ _ _ _ _ _ _ _ (fun n k => hx (ix2 n k)) (fun k q => hW1 (ix2 k q)) (fun q => hb1 (ix1 q))
    (fun k q => hW2 (ix2 k q)) (fun q => hb2 (ix1 q)) g f).symm).trans ?_
  exact (Cert.KernelIdeal.Hand.kernel_value m ρ c g f).symm

end Cert.Proof.ValueClaims

end
-- ==== Proof.lean ====
import proofs.«417436_j16896401342873_2_alg».proof.Defs
import proofs.«417436_j16896401342873_2_alg».proof.Proof.Gen.Kernel
import proofs.«417436_j16896401342873_2_alg».proof.Proof.Gen.KernelIdeal
import proofs.«417436_j16896401342873_2_alg».proof.Proof.Gen.ReferenceIdeal
import proofs.«417436_j16896401342873_2_alg».proof.Proof.Gen.Pre_finite_inputs
import proofs.«417436_j16896401342873_2_alg».proof.Proof.Frames
import proofs.«417436_j16896401342873_2_alg».proof.Proof.RefFrame
import proofs.«417436_j16896401342873_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    FrameClaims.frame_k, FrameClaims.frame_ki, RefClaims.frame_ri, trivial, ValueClaims.algebraic⟩

end Cert.Proof

end
